-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 1 := constantI S_ 1 1#1
  let main_v26 : IVec S_ 1 := (fun x v => Host.reduce IntOp.andi x v reducesTo_S2x640000_S_d0_1 h_S_) main_v25 main_c_9
  let main_v27 : IVec S_ 1 := andi main_v23 main_v26
  let main_c_10 : IVec S_ 32 := constantI S_ 32 10000#32
  let main_v28 : IVec S2x640000 32 := broadcastInDim S2x640000 ![] bcast_S_S2x640000 main_c_10
  let main_v29 : IVec S2x640000 1 := cmpi .slt main_arg1 main_v28
  let main_c_11 : IVec S_ 1 := constantI S_ 1 1#1
  let main_v30 : IVec S_ 1 := (fun x v => Host.reduce IntOp.andi x v reducesTo_S2x640000_S_d0_1 h_S_) main_v29 main_c_11
  let main_v31 : IVec S_ 1 := andi main_v27 main_v30
  main_v31

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S2x10000x128 : Shape := ⟨3, ![2, 10000, 128]⟩
abbrev S1x256 : Shape := ⟨2, ![1, 256]⟩
abbrev S1x10000x128 : Shape := ⟨3, ![1, 10000, 128]⟩
abbrev S10000x256 : Shape := ⟨2, ![10000, 256]⟩
abbrev S256x128 : Shape := ⟨2, ![256, 128]⟩
abbrev S1000x128 : Shape := ⟨2, ![1000, 128]⟩
abbrev S2x1000x128 : Shape := ⟨3, ![2, 1000, 128]⟩
abbrev S1x1000x128 : Shape := ⟨3, ![1, 1000, 128]⟩
abbrev S1x128 : Shape := ⟨2, ![1, 128]⟩
abbrev S1000 : Shape := ⟨1, ![1000]⟩
abbrev S1000x1 : Shape := ⟨2, ![1000, 1]⟩

abbrev nBuf : Space → Nat
  | .hbm => 34
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S1x640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S1x640000, .i32⟩
  | .hbm, ⟨28, _⟩ => ⟨S10000x128, .bf16⟩
  | .hbm, ⟨29, _⟩ => ⟨S2x10000x128, .f32⟩
  | .hbm, ⟨30, _⟩ => ⟨S10000x128, .f32⟩
  | .hbm, ⟨31, _⟩ => ⟨S10000x128, .bf16⟩
  | .hbm, ⟨32, _⟩ => ⟨S2x10000x128, .f32⟩
  | .hbm, ⟨33, _⟩ => ⟨S10000x128, .f32⟩
  | .local _ .vmem, ⟨0, _⟩ => ⟨S10000x128, .bf16⟩
  | .local _ .vmem, ⟨1, _⟩ => ⟨S1x256, .i32⟩
  | .local _ .vmem, ⟨2, _⟩ => ⟨S1x256, .i32⟩
  | .local _ .vmem, ⟨3, _⟩ => ⟨S1x256, .i32⟩
  | .local _ .vmem, ⟨4, _⟩ => ⟨S1x256, .i32⟩
  | .local _ .vmem, ⟨5, _⟩ => ⟨S1x10000x128, .f32⟩
  | .local _ .vmem, ⟨6, _⟩ => ⟨S10000x128, .f32⟩
  | .local _ .vmem, ⟨7, _⟩ => ⟨S1000x128, .f32⟩
  | .local _ .vmem, ⟨8, _⟩ => ⟨S1000x128, .f32⟩
  | .local _ .vmem, ⟨9, _⟩ => ⟨S2x1000x128, .f32⟩
  | .local _ .vmem, ⟨10, _⟩ => ⟨S2x1000x128, .f32⟩
  | .local _ .vmem, ⟨11, _⟩ => ⟨S128x128, .f32⟩
  | .local _ .vmem, ⟨12, _⟩ => ⟨S128, .f32⟩
  | .local _ .vmem, ⟨13, _⟩ => ⟨S1000x128, .f32⟩
  | .local _ .vmem, ⟨14, _⟩ => ⟨S1000x128, .f32⟩
  | .local _ .vmem, ⟨15, _⟩ => ⟨S10000x128, .bf16⟩
  | .local _ .vmem, ⟨16, _⟩ => ⟨S1x256, .i32⟩
  | .local _ .vmem, ⟨17, _⟩ => ⟨S1x256, .i32⟩
  | .local _ .vmem, ⟨18, _⟩ => ⟨S1x256, .i32⟩
  | .local _ .vmem, ⟨19, _⟩ => ⟨S1x256, .i32⟩
  | .local _ .vmem, ⟨20, _⟩ => ⟨S1x10000x128, .f32⟩
  | .local _ .vmem, ⟨21, _⟩ => ⟨S10000x128, .f32⟩
  | .local _ .vmem, ⟨22, _⟩ => ⟨S1000x128, .f32⟩
  | .local _ .vmem, ⟨23, _⟩ => ⟨S1000x128, .f32⟩
  | .local _ .vmem, ⟨24, _⟩ => ⟨S2x1000x128, .f32⟩
  | .local _ .vmem, ⟨25, _⟩ => ⟨S2x1000x128, .f32⟩
  | .local _ .vmem, ⟨26, _⟩ => ⟨S128x128, .f32⟩
  | .local _ .vmem, ⟨27, _⟩ => ⟨S128, .f32⟩
  | .local _ .vmem, ⟨28, _⟩ => ⟨S1000x128, .f32⟩
  | .local _ .vmem, ⟨29, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v28 : BitVec 1 := Scalar.cmpi .eq arg1 c1249_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 1250], ![false, false]⟩

def k2_cond2 (i : grid2.Coords) : BitVec 1 :=
  let arg1 : BitVec 32 := BitVec.ofNat 32 (i 1).val
  let c1249_i32 : BitVec 32 := 1249#32
  let v28 : BitVec 1 := Scalar.cmpi .eq arg1 c1249_i32
  let v29 : BitVec 32 := Scalar.extui v28
  let c0_i32_11 : BitVec 32 := 0#32
  let v30 : BitVec 1 := Scalar.cmpi .ne v29 c0_i32_11
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S10000x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x10000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  shapeCasts_S640000_S1x640000 : S640000.ShapeCasts S1x640000
  slices_S2x640000_S1x640000_1_0 : S2x640000.Slices ![1, 0] S1x640000
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S10000x256_d0_w32 : S10000x256.Iotas .tc 32 [0]
  broadcasts_S1x256_S10000x256 : S1x256.Broadcasts S10000x256
  natLt_1_32 : 1 < 32
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S2x1000x128_S1x1000x128_0_0_0 : ∀ a, (![0, 0, 0] : Fin 3 → Nat) a + S1x1000x128.size a ≤ S2x1000x128.size a
  h_S1x1000x128 : 0 < S1x1000x128.numel
  shapeCasts_S1x1000x128_S1000x128 : S1x1000x128.ShapeCasts S1000x128
  inb_S2x1000x128_S1x1000x128_1_0_0 : ∀ a, (![1, 0, 0] : Fin 3 → Nat) a + S1x1000x128.size a ≤ S2x1000x128.size a
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  shapeCasts_S1000x128_S1000x128 : S1000x128.ShapeCasts S1000x128
  reduces_S1000x128_S1000 : S1000x128.Reduces [1] S1000
  shapeCasts_S1000_S1000x1 : S1000.ShapeCasts S1000x1
  broadcasts_S1000x1_S1000x128 : S1000x1.Broadcasts S1000x128
  dot_S10000x256_S10000x128_S256x128_0_0_1_1_n_n_wf : DotDims.WF S10000x256 S10000x128 S256x128 [0] [0] [1] [1] [] []
  dot_S10000x256_S256x128_S10000x128_1_0_0_1_n_n_wf : DotDims.WF S10000x256 S256x128 S10000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x640000.size a
  hwx0_1 : ∀ i : grid0.Coords, EltTy.bits .i32 = 32 ∨ (Rect.block (s := S1x640000) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x640000.size a
  hwx0_2 : ∀ i : grid0.Coords, EltTy.bits .i32 = 32 ∨ (Rect.block (s := S1x640000) S1x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000x128.size a ≤ S2x10000x128.size a
  hwx0_3 : ∀ i : grid0.Coords, EltTy.bits .f32 = 32 ∨ (Rect.block (s := S2x10000x128) S1x10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1000x128.size a ≤ S2x10000x128.size a
  hwx1_1 : ∀ i : grid1.Coords, EltTy.bits .f32 = 32 ∨ (Rect.block (s := S2x10000x128) S2x1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .bf16 = 32 ∨ (Rect.block (s := S10000x128) S10000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x640000.size a
  hwx2_1 : ∀ i : grid2.Coords, EltTy.bits .i32 = 32 ∨ (Rect.block (s := S1x640000) S1x256.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x640000.size a
  hwx2_2 : ∀ i : grid2.Coords, EltTy.bits .i32 = 32 ∨ (Rect.block (s := S1x640000) S1x256.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10000x128.size a ≤ S2x10000x128.size a
  hwx2_3 : ∀ i : grid2.Coords, EltTy.bits .f32 = 32 ∨ (Rect.block (s := S2x10000x128) S1x10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x1000x128.size a ≤ S2x10000x128.size a
  hwx3_1 : ∀ i : grid3.Coords, EltTy.bits .f32 = 32 ∨ (Rect.block (s := S2x10000x128) S2x1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x128.size a ≤ S10000x128.size a
  hwx3_4 : ∀ i : grid3.Coords, EltTy.bits .f32 = 32 ∨ (Rect.block (s := S10000x128) S1000x128.size (cc3_transform_4 i) (hinb3_4 i)).WholeWords (EltTy.packing .f32)

variable [Facts₀]

def dot_S10000x256_S10000x128_S256x128_0_0_1_1_n_n : DotDims S10000x256 S10000x128 S256x128 where
  lhsContracting := [0]
  rhsContracting := [0]
  lhsNonContracting := [1]
  rhsNonContracting := [1]
  lhsBatch := []
  rhsBatch := []
  wf := dot_S10000x256_S10000x128_S256x128_0_0_1_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v8) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x10000x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2x1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x10000x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v10) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2x1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S10000 : Shape := ⟨1, ![10000]⟩
abbrev S10000x1 : Shape := ⟨2, ![10000, 1]⟩

abbrev nBuf : Space → Nat
  | .hbm => 70
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S10000x128, .f32⟩
  | .hbm, ⟨45, _⟩ => ⟨S640000x1, .i32⟩
  | .hbm, ⟨46, _⟩ => ⟨S10000x128, .f32⟩
  | .hbm, ⟨47, _⟩ => ⟨S_, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000, .f32⟩
  | .hbm, ⟨57, _⟩ => ⟨S_, .f32⟩
  | .hbm, ⟨58, _⟩ => ⟨S10000, .f32⟩
  | .hbm, ⟨59, _⟩ => ⟨S10000, .f32⟩
  | .hbm, ⟨60, _⟩ => ⟨S10000x1, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S_, .f32⟩
  | .hbm, ⟨65, _⟩ => ⟨S10000, .f32⟩
  | .hbm, ⟨66, _⟩ => ⟨S10000x1, .f32⟩
  | .hbm, ⟨67, _⟩ => ⟨S10000x1, .f32⟩
  | .hbm, ⟨68, _⟩ => ⟨S10000x128, .f32⟩
  | .hbm, ⟨69, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KRunCond.lean ====
import proofs.«409789_j50697793962364_3_alg».proof.Proof.Gen.Kernel.Regions
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Seg BodyObligation)

variable {F : FTy → Type} [FloatOps F]

local notation "𝕄" => MT nD τ sig Unit (Elt F) ℕ (UR sig nD τ) ℕ

variable (m : (ℓ : Loc nD τ sig) → Buf (Elt F) ℓ)

abbrev Same (c : Dev nD) (s : MemSt nD τ sig (Elt F)) (b : Ref sig .tc) : Prop :=
  s.mem ((c.tc : Thread nD τ).loc b) = m ((c.tc : Thread nD τ).loc b)

abbrev Kept (c : Dev nD) (s : MemSt nD τ sig (Elt F)) : Prop :=
  Same m c s main_arg0 ∧ Same m c s main_arg1 ∧ Same m c s main_arg2 ∧ Same m c s main_arg3 ∧ Same m c s main_arg4 ∧ Same m c s main_arg5

abbrev Ends (o : Outs (F := F)) (c : Dev nD) (s : MemSt nD τ sig (Elt F)) : Prop :=
  s.mem ((c.tc : Thread nD τ).loc main_v13) = o 10 main_v13 c ∧ Kept m c s

theorem V10_main_v13 (o : Outs (F := F)) (c : Dev nD) : V10 m o c main_v13 = o 10 main_v13 c := by
  simp only [V10, Function.update_self]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable {p : Fin 4} (lf : Pipeline.LaunchFacts (nD := nD) (τ := τ) cfgs p) (o : Fin (cfgs p).W)
  (hio : ∀ w, w ≠ o → ((cfgs p).win w).isOut = false)
include lf hio

-- the update touches the output array's key alone: the other arrays' keys differ from it, and an input array ends as it began
theorem exitVal {c : Dev nD} (d : Dat τ (Elt F) Unit ℕ (UR sig nD τ) ℕ (cfgs p) c) (V : Valuation τ sig (Elt F))
    (hA : ∀ w, d.A w = V (Pipeline.arrRef (cfgs p).spec w)) :
    let V' := Function.update V (Pipeline.arrRef (cfgs p).spec o) (Pipeline.withArrays (cfgs p).spec c V (d.arrAt · (cfgs p).N) (Pipeline.arrRef (cfgs p).spec o))
    (∀ w, d.arrAt w (cfgs p).N = V' (Pipeline.arrRef (cfgs p).spec w))
      ∧ ∀ b : Ref sig .tc, b ∉ Finset.univ.image (Pipeline.arrRef (cfgs p).spec) → V' b = V b := by
  refine ⟨fun w => ?_, fun b hb => Function.update_of_ne (fun e => hb (Finset.mem_image.mpr ⟨o, Finset.mem_univ _, (Proc.devRef_injective _ e).symm⟩)) _ _⟩
  by_cases h : w = o
  · subst h
    rw [Function.update_self]
    exact (Pipeline.withArrays_arr _ lf.win.arr_inj c V (d.arrAt · (cfgs p).N) w).symm
  · exact ((d.arrAt_in w (hio w h) _).trans (hA w)).trans (Function.update_of_ne (fun e => h (lf.win.arr_inj (Proc.devRef_injective _ e))) _ _).symm

variable {pd : (p : Fin 4) → (c : Dev nD) → Dat τ (Elt F) Unit ℕ (UR sig nD τ) ℕ (cfgs p) c}

set_option backward.isDefEq.respectTransparency.types false in
def reg (V V' : (c : Dev nD) → Valuation τ sig (Elt F))
    (hb : ∀ c, BodyObligation (pd p c) (defs₀ (F := F)) Variants.none () Set.univ)
    (hA : ∀ c w, (pd p c).A w = V c (Pipeline.arrRef (cfgs p).spec w))
    (hin : ∀ c, Pipeline.ΦA (cfgs p).spec c ⊢ (pd p c).Φ 0)
    (hout : ∀ c, (pd p c).Φ (Fin.last _) ⊢ Pipeline.ΦA (cfgs p).spec c)
    (hV' : ∀ c, V' c = Function.update (V c) (Pipeline.arrRef (cfgs p).spec o) (Pipeline.withArrays (cfgs p).spec c (V c) ((pd p c).arrAt · (cfgs p).N) (Pipeline.arrRef (cfgs p).spec o)) := by intros; rfl)
    (hq : ∀ c w, (pd p c).q w = fullShare := by intros; rfl) (ho : ∀ c t, (pd p c).owed t = 0 := by intros; rfl)
    (hr : ∀ c t, (pd p c).recorded t = Set.univ := by intros; rfl) :
    Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hr c 0 ▸ trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    obtain ⟨hF, hrest⟩ := hV' c ▸ exitVal lf o hio (pd p c) (V c) (hA c)
    have hjoin := Pipeline.unscopedBufs_of_arrays (p := p) (pcfgs (F := F)) adm lf.win lf.arr_whole c pd ((pd p c).share_full (hq c)) (fun b => V c b) (fun b => V' c b) ((pd p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

end Cert.Kernel.Fr

end
-- ==== Proof.KAggRuns0.lean ====
import proofs.«409789_j50697793962364_3_alg».proof.Proof.Gen.Kernel.Launch
import proofs.«409789_j50697793962364_3_alg».proof.Proof.Gen.Kernel.Skeleton
import proofs.«409789_j50697793962364_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 1250 = 0 :=
  (by decide +kernel : ∀ t : Fin grid0.N, condFirst (grid0.coords t) ↔ t.val % 1250 = 0)

abbrev condLast (i : grid0.Coords) : Prop := k0_cond2 i = 1#1
theorem hcondLast : ∀ t : Fin cfg0.N, condLast (grid0.coords t) ↔ t.val % 1250 = 1249 :=
  (by decide +kernel : ∀ t : Fin grid0.N, condLast (grid0.coords t) ↔ t.val % 1250 = 1249)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem idle_3 : ∀ t : Fin cfg0.N, ¬t.val % 1250 = 1249 → cfg0.idle 3 (grid0.coords t) = true := by decide +kernel
theorem noFlush_3 : ∀ t : Fin cfg0.N, ¬t.val % 1250 = 1249 → (cfg0.win 3).flush t = false := by decide +kernel
theorem live_3 : ∀ t : Fin cfg0.N, t.val % 1250 = 1249 → cfg0.idle 3 (grid0.coords t) = false := by decide +kernel

abbrev VO_3 : View sig .tc .vmem S1x10000x128 .f32 := (Memref.whole cc0_stg3_0 : Memref sig .tc .vmem S1x10000x128 .f32).view
abbrev ms_0 (t : Fin cfg0.N) : Memref sig .tc .vmem S10000x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x256 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x256 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x10000x128 .f32 := win0_3.stage (cfg0.slots t 3)
abbrev hs_3 (t : Fin cfg0.N) : (ms_3 t).IsWhole := hstage0_3 ((cfg0.slots t 3).cast nbuf0_3)
abbrev scM : Memref sig .tc .vmem S10000x128 .f32 := Memref.whole cc0_scratch0
abbrev VS : View sig .tc .vmem S10000x128 .f32 := scM.view

abbrev restBut (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restBut c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

-- a whole buffer that holds the contents made from `x` reads as `x`
theorem owns_unread (c : Dev nD) {S : Shape} {e : EltTy} {M : Memref sig .tc .vmem S e} (hM : M.IsWhole) (x : Vec F S e) :
    (M.view.loc (c : Thread nD τ) ↦[M.view.set]{fullShare} hM.unread x : sProp 𝕄) ⊢ iprop(∃ f, ⌜M.view.read (Elt F) f = x⌝ ∗ M.view.loc (c : Thread nD τ) ↦[M.view.set]{fullShare} f) := by
  iintro H; iexists _; isplitr; · ipureintro; exact hM.read_unread _
  iexact H

variable (c : Dev nD) (i : grid0.Coords) (arg2 : Memref sig .tc .vmem S10000x128 .bf16) (harg2 : arg2.IsWhole)
  (arg3 : Memref sig .tc .vmem S1x256 .i32) (harg3 : arg3.IsWhole) (arg4 : Memref sig .tc .vmem S1x256 .i32) (harg4 : arg4.IsWhole)
  (arg5 : Memref sig .tc .vmem S1x10000x128 .f32) (harg5 : arg5.IsWhole) (arg6 : Memref sig .tc .vmem S10000x128 .f32) (harg6 : arg6.IsWhole)

set_option maxHeartbeats 1000000 in
noncomputable def kernelRun_A (hc0 : condFirst i) (hc1 : ¬condLast i)
    (x0 : Vec F S10000x128 .bf16) (x1 : Vec F S1x256 .i32) (x2 : Vec F S1x256 .i32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xi3 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_B (hc0 : ¬condFirst i) (hc1 : ¬condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xi3 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_C (hc0 : ¬condFirst i) (hc1 : condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iexists _; iexact H3
    iexists _; iexact HS

end Cert.Kernel.Fr0

end
-- ==== Proof.KAggDat0.lean ====
import proofs.«409789_j50697793962364_3_alg».proof.Proof.KAggRuns0

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev Pcs (S : Shape) := List (View.Piece (Elt F) S .f32)

def runA (c : Dev nD) (t : Fin cfg0.N) (h0 : t.val % 1250 = 0) (h1 : ¬t.val % 1250 = 1249) :=
  kernelRun_A c (grid0.coords t) (ms_0 t) (hs_0 t) (ms_1 t) (hs_1 t) (ms_2 t) (hs_2 t) (ms_3 t) (hs_3 t) scM (Memref.isWhole_whole _)
    ((hcondFirst t).mpr h0) (fun h => h1 ((hcondLast t).mp h)) (iblk V c 0 t) (iblk V c 1 t) (iblk V c 2 t)

def runB (c : Dev nD) (t : Fin cfg0.N) (h0 : ¬t.val % 1250 = 0) (h1 : ¬t.val % 1250 = 1249) (xs : Vec F S10000x128 .f32) :=
  kernelRun_B c (grid0.coords t) (ms_0 t) (hs_0 t) (ms_1 t) (hs_1 t) (ms_2 t) (hs_2 t) (ms_3 t) (hs_3 t) scM (Memref.isWhole_whole _)
    (fun h => h0 ((hcondFirst t).mp h)) (fun h => h1 ((hcondLast t).mp h)) (iblk V c 0 t) (iblk V c 1 t) (iblk V c 2 t) xs

def runC (c : Dev nD) (t : Fin cfg0.N) (h0 : ¬t.val % 1250 = 0) (h1 : t.val % 1250 = 1249) (xs : Vec F S10000x128 .f32) :=
  kernelRun_C c (grid0.coords t) (ms_0 t) (hs_0 t) (ms_1 t) (hs_1 t) (ms_2 t) (hs_2 t) (ms_3 t) (hs_3 t) scM (Memref.isWhole_whole _)
    (fun h => h0 ((hcondFirst t).mp h)) ((hcondLast t).mpr h1) (iblk V c 0 t) (iblk V c 1 t) (iblk V c 2 t) xs

abbrev rdO (L : Pcs (F := F) S1x10000x128) : Vec F S1x10000x128 .f32 := VO_3.read (Elt F) (VO_3.writes (Elt F) VO_3.junk L)
abbrev rdS (L : Pcs (F := F) S10000x128) : Vec F S10000x128 .f32 := VS.read (Elt F) (VS.writes (Elt F) VS.junk L)

-- what a trip's stores leave: in the output block and in the running sum
abbrev rd {P : Pcs (F := F) S1x10000x128 → Pcs (F := F) S10000x128 → Prop}
    (r : Σ' L3, { LS // P L3 LS }) : Vec F S1x10000x128 .f32 × Vec F S10000x128 .f32 := (rdO r.1, rdS r.2.1)

-- after trip n: a first trip starts afresh from its own blocks, any other continues from what trip n - 1 left in the running sum
def outsAt (c : Dev nD) : (n : ℕ) → n < cfg0.N → Vec F S1x10000x128 .f32 × Vec F S10000x128 .f32
  | 0, hn => rd (runA V c ⟨0, hn⟩ (Nat.zero_mod _) (by show ¬0 % 1250 = 1249; omega))
  | n + 1, hn =>
    if h0 : (n + 1) % 1250 = 0 then rd (runA V c ⟨n + 1, hn⟩ h0 (by show ¬(n + 1) % 1250 = 1249; omega))
    else if h1 : (n + 1) % 1250 = 1249 then rd (runC V c ⟨n + 1, hn⟩ h0 h1 (outsAt c n (Nat.lt_of_succ_lt hn)).2)
    else rd (runB V c ⟨n + 1, hn⟩ h0 h1 (outsAt c n (Nat.lt_of_succ_lt hn)).2)

abbrev prev (c : Dev nD) (t : Fin cfg0.N) : Vec F S10000x128 .f32 :=
  (outsAt V c (t.val - 1) (Nat.lt_of_le_of_lt (Nat.sub_le _ _) t.isLt)).2

theorem outsAt_A (c : Dev nD) (t : Fin cfg0.N) (h0 : t.val % 1250 = 0) (h1 : ¬t.val % 1250 = 1249) :
    outsAt V c t.val t.isLt = rd (runA V c t h0 h1) := by
  obtain ⟨n, hn⟩ := t
  cases n with
  | zero => rfl
  | succ n => exact dif_pos h0

theorem outsAt_B (c : Dev nD) (t : Fin cfg0.N) (h0 : ¬t.val % 1250 = 0) (h1 : ¬t.val % 1250 = 1249) :
    outsAt V c t.val t.isLt = rd (runB V c t h0 h1 (prev V c t)) := by
  obtain ⟨n, hn⟩ := t
  cases n with
  | zero => exact absurd (Nat.zero_mod _) h0
  | succ n => exact (dif_neg h0).trans (dif_neg h1)

theorem outsAt_C (c : Dev nD) (t : Fin cfg0.N) (h0 : ¬t.val % 1250 = 0) (h1 : t.val % 1250 = 1249) :
    outsAt V c t.val t.isLt = rd (runC V c t h0 h1 (prev V c t)) := by
  obtain ⟨n, hn⟩ := t
  cases n with
  | zero => exact absurd (Nat.zero_mod _) h0
  | succ n => exact (dif_neg h0).trans (dif_pos h1)

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restBut (F := F) c) ∗ (∃ r, prngReg c r))

theorem PhiS_pos (c : Dev nD) (n : ℕ) (h : n ≤ cfg0.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

-- between trips the running sum holds some contents: all a first trip asks for, and all that is kept at the end
theorem PhiS_any (c : Dev nD) (n : ℕ) (h : n ≤ cfg0.N) :
    PhiS V c n h ⊢ iprop(iprop((∃ d, owns (c : Thread nD τ) scM fullShare d) ∗ restBut (F := F) c) ∗ (∃ r, prngReg c r)) := by
  cases n with
  | zero => rw [show PhiS V c 0 h = Pipeline.ΦA spec0 c from rfl, PhiA_eq]
  | succ n =>
    change iprop(iprop(_ ∗ _) ∗ _) ⊢ _
    iintro ⟨⟨HS, HR⟩, Hg⟩
    iframe HR Hg
    iexists _; iexact HS

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_3 (c : Dev nD) (t : Fin cfg0.N) : (dat V c).after 3 t = (outsAt V c t.val t.isLt).1 := by dsimp only [dat]

theorem before_in (c : Dev nD) (t : Fin cfg0.N) :
    (∀ d, (dat V c).before 0 t d = iblk V c 0 t) ∧ (∀ d, (dat V c).before 1 t d = iblk V c 1 t) ∧ (∀ d, (dat V c).before 2 t d = iblk V c 2 t) := by
  refine ⟨fun d => ?_, fun d => ?_, fun d => ?_⟩ <;>
    exact ((dat V c).before_in_eq_fetched _ rfl (fun _ => rfl) (fun _ _ _ => rfl) (fun t => by dsimp only [dat]; unfold Dat.blockOf iblk; try rfl) t d).trans
      (by unfold Dat.fetched Dat.blockOf iblk; dsimp only [dat]; try rfl)

theorem leaves_in (c : Dev nD) (t : Fin cfg0.N) :
    (dat V c).leavesExact 0 t = owns (c : Thread nD τ) (ms_0 t) fullShare (iblk V c 0 t)
      ∧ (dat V c).leavesExact 1 t = owns (c : Thread nD τ) (ms_1 t) fullShare (iblk V c 1 t)
      ∧ (dat V c).leavesExact 2 t = owns (c : Thread nD τ) (ms_2 t) fullShare (iblk V c 2 t) := by
  refine ⟨?_, ?_, ?_⟩ <;> (unfold Dat.leavesExact; simp only [liveAt_0 t, liveAt_1 t, liveAt_2 t]; rfl)

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

-- what covering writes leave does not depend on what was there before
theorem owns_writes (c : Dev nD) {S : Shape} (M : Memref sig .tc .vmem S .f32) (v' : View sig .tc .vmem S .f32) (L : Pcs (F := F) S)
    (hL : View.Piece.tiledL L S.size = true) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩; iexists _; isplitr
  swap; · iexact H
  ipureintro; exact View.read_writes_of_cover _ _ _ _ _ (View.cover_of_tiledL _ _ hL)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [(before_in V c t).1, (before_in V c t).2.1, (before_in V c t).2.2]
  rw [show (dat V c).owesAt () t.succ = (dat V c).owesAt () t.castSucc from rfl,
    show (dat V c).Φ t.succ = iprop(iprop(owns (c : Thread nD τ) scM fullShare ((outsAt V c t.val t.isLt).2) ∗ restBut (F := F) c) ∗ (∃ r, prngReg c r)) from rfl,
    PhiS_castSucc V c t]
  simp only [(leaves_in V c t).1, (leaves_in V c t).2.1, (leaves_in V c t).2.2]
  by_cases h1 : t.val % 1250 = 1249
  · have h0 : ¬t.val % 1250 = 0 := by omega
    rw [show (dat V c).leavesExact 3 t = owns (c : Thread nD τ) (ms_3 t) fullShare ((dat V c).after 3 t) from by
      unfold Dat.leavesExact; rw [live_3 t h1], after_3]
    rw [outsAt_C V c t h0 h1, PhiS_pos V c _ _ (fun hz => h0 (by rw [hz]))]
    dsimp only [rd]
    iintro ⟨⟨⟨HS, HR⟩, Hg⟩, Ho, ⟨%d0, H0⟩, ⟨%d1, H1⟩, ⟨%d2, H2⟩, ⟨%d3, H3⟩⟩
    iapply ((runC V c t h0 h1 (prev V c t)).2.2 Set.univ _)
    iframe H0 H1 H2 HS
    isplitl [H3]; · iexists _; iexact H3
    iintro ⟨H0, H1, H2, H3, HS⟩
    iframe HR Hg Ho H0 H1 H2
    isplitl [HS]
    · iapply owns_writes c scM VS (runC V c t h0 h1 _).2.1 (by sl_kernel_rfl); iexact HS
    iapply owns_writes c (ms_3 t) VO_3 (runC V c t h0 h1 _).1 (by sl_kernel_rfl); iexact H3
  · rw [Dat.leavesExact_idle (dat V c) 3 t (idle_3 t h1) (noFlush_3 t h1)]
    by_cases h0 : t.val % 1250 = 0
    · rw [outsAt_A V c t h0 h1]
      dsimp only [rd]
      refine (sep_mono (PhiS_any V c _ _) .rfl).trans ?_
      iintro ⟨⟨⟨HS, HR⟩, Hg⟩, Ho, ⟨%d0, H0⟩, ⟨%d1, H1⟩, ⟨%d2, H2⟩, ⟨%d3, H3⟩⟩
      iapply ((runA V c t h0 h1).2.2 _ Set.univ _)
      iframe H0 H1 H2 H3 HS
      iintro ⟨H0, H1, H2, H3, HS⟩
      iframe HR Hg Ho H0 H1 H2
      isplitl [HS]
      · iapply owns_writes c scM VS (runA V c t h0 h1).2.1 (by sl_kernel_rfl); iexact HS
      iexists _; iexact H3
    · rw [outsAt_B V c t h0 h1, PhiS_pos V c _ _ (fun hz => h0 (by rw [hz]))]
      dsimp only [rd]
      iintro ⟨⟨⟨HS, HR⟩, Hg⟩, Ho, ⟨%d0, H0⟩, ⟨%d1, H1⟩, ⟨%d2, H2⟩, ⟨%d3, H3⟩⟩
      iapply ((runB V c t h0 h1 (prev V c t)).2.2 _ Set.univ _)
      iframe H0 H1 H2 H3 HS
      iintro ⟨H0, H1, H2, H3, HS⟩
      iframe HR Hg Ho H0 H1 H2
      isplitl [HS]
      · iapply owns_writes c scM VS (runB V c t h0 h1 _).2.1 (by sl_kernel_rfl); iexact HS
      iexists _; iexact H3

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = Pipeline.ΦA spec0 c from rfl]

theorem hout (c : Dev nD) : (dat V c).Φ (Fin.last cfg0.N) ⊢ Pipeline.ΦA spec0 c := by
  rw [PhiA_eq]
  exact PhiS_any V c (Fin.last cfg0.N).val (Nat.le_of_lt_succ (Fin.last cfg0.N).isLt)

end Cert.Kernel.Fr0

end
-- ==== Proof.KAggRuns2.lean ====
import proofs.«409789_j50697793962364_3_alg».proof.Proof.Gen.Kernel.Launch
import proofs.«409789_j50697793962364_3_alg».proof.Proof.Gen.Kernel.Skeleton
import proofs.«409789_j50697793962364_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Fr2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 1250 = 0 :=
  (by decide +kernel : ∀ t : Fin grid2.N, condFirst (grid2.coords t) ↔ t.val % 1250 = 0)

abbrev condLast (i : grid2.Coords) : Prop := k2_cond2 i = 1#1
theorem hcondLast : ∀ t : Fin cfg2.N, condLast (grid2.coords t) ↔ t.val % 1250 = 1249 :=
  (by decide +kernel : ∀ t : Fin grid2.N, condLast (grid2.coords t) ↔ t.val % 1250 = 1249)

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem idle_3 : ∀ t : Fin cfg2.N, ¬t.val % 1250 = 1249 → cfg2.idle 3 (grid2.coords t) = true := by decide +kernel
theorem noFlush_3 : ∀ t : Fin cfg2.N, ¬t.val % 1250 = 1249 → (cfg2.win 3).flush t = false := by decide +kernel
theorem live_3 : ∀ t : Fin cfg2.N, t.val % 1250 = 1249 → cfg2.idle 3 (grid2.coords t) = false := by decide +kernel

abbrev VO_3 : View sig .tc .vmem S1x10000x128 .f32 := (Memref.whole cc2_stg3_0 : Memref sig .tc .vmem S1x10000x128 .f32).view
abbrev ms_0 (t : Fin cfg2.N) : Memref sig .tc .vmem S10000x128 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1x256 .i32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x256 .i32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x10000x128 .f32 := win2_3.stage (cfg2.slots t 3)
abbrev hs_3 (t : Fin cfg2.N) : (ms_3 t).IsWhole := hstage2_3 ((cfg2.slots t 3).cast nbuf2_3)
abbrev scM : Memref sig .tc .vmem S10000x128 .f32 := Memref.whole cc2_scratch0
abbrev VS : View sig .tc .vmem S10000x128 .f32 := scM.view

abbrev restBut (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut c) :=
  Pipeline.scopedRest_split_of_list spec2 c [cc2_scratch0] (by decide) (by decide)

theorem PhiA_eq (c : Dev nD) :
    (Pipeline.ΦA spec2 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

-- a whole buffer that holds the contents made from `x` reads as `x`
theorem owns_unread (c : Dev nD) {S : Shape} {e : EltTy} {M : Memref sig .tc .vmem S e} (hM : M.IsWhole) (x : Vec F S e) :
    (M.view.loc (c : Thread nD τ) ↦[M.view.set]{fullShare} hM.unread x : sProp 𝕄) ⊢ iprop(∃ f, ⌜M.view.read (Elt F) f = x⌝ ∗ M.view.loc (c : Thread nD τ) ↦[M.view.set]{fullShare} f) := by
  iintro H; iexists _; isplitr; · ipureintro; exact hM.read_unread _
  iexact H

variable (c : Dev nD) (i : grid2.Coords) (arg2 : Memref sig .tc .vmem S10000x128 .bf16) (harg2 : arg2.IsWhole)
  (arg3 : Memref sig .tc .vmem S1x256 .i32) (harg3 : arg3.IsWhole) (arg4 : Memref sig .tc .vmem S1x256 .i32) (harg4 : arg4.IsWhole)
  (arg5 : Memref sig .tc .vmem S1x10000x128 .f32) (harg5 : arg5.IsWhole) (arg6 : Memref sig .tc .vmem S10000x128 .f32) (harg6 : arg6.IsWhole)

set_option maxHeartbeats 1000000 in
noncomputable def kernelRun_A (hc0 : condFirst i) (hc1 : ¬condLast i)
    (x0 : Vec F S10000x128 .bf16) (x1 : Vec F S1x256 .i32) (x2 : Vec F S1x256 .i32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨[], ?_, fun xi3 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_B (hc0 : ¬condFirst i) (hc1 : ¬condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨[], ?_, fun xi3 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_C (hc0 : ¬condFirst i) (hc1 : condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iexists _; iexact H3
    iexists _; iexact HS

end Cert.Kernel.Fr2

end
-- ==== Proof.KAggDat2.lean ====
import proofs.«409789_j50697793962364_3_alg».proof.Proof.KAggRuns2

noncomputable section

namespace Cert.Kernel.Fr2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev Pcs (S : Shape) := List (View.Piece (Elt F) S .f32)

def runA (c : Dev nD) (t : Fin cfg2.N) (h0 : t.val % 1250 = 0) (h1 : ¬t.val % 1250 = 1249) :=
  kernelRun_A c (grid2.coords t) (ms_0 t) (hs_0 t) (ms_1 t) (hs_1 t) (ms_2 t) (hs_2 t) (ms_3 t) (hs_3 t) scM (Memref.isWhole_whole _)
    ((hcondFirst t).mpr h0) (fun h => h1 ((hcondLast t).mp h)) (iblk V c 0 t) (iblk V c 1 t) (iblk V c 2 t)

def runB (c : Dev nD) (t : Fin cfg2.N) (h0 : ¬t.val % 1250 = 0) (h1 : ¬t.val % 1250 = 1249) (xs : Vec F S10000x128 .f32) :=
  kernelRun_B c (grid2.coords t) (ms_0 t) (hs_0 t) (ms_1 t) (hs_1 t) (ms_2 t) (hs_2 t) (ms_3 t) (hs_3 t) scM (Memref.isWhole_whole _)
    (fun h => h0 ((hcondFirst t).mp h)) (fun h => h1 ((hcondLast t).mp h)) (iblk V c 0 t) (iblk V c 1 t) (iblk V c 2 t) xs

def runC (c : Dev nD) (t : Fin cfg2.N) (h0 : ¬t.val % 1250 = 0) (h1 : t.val % 1250 = 1249) (xs : Vec F S10000x128 .f32) :=
  kernelRun_C c (grid2.coords t) (ms_0 t) (hs_0 t) (ms_1 t) (hs_1 t) (ms_2 t) (hs_2 t) (ms_3 t) (hs_3 t) scM (Memref.isWhole_whole _)
    (fun h => h0 ((hcondFirst t).mp h)) ((hcondLast t).mpr h1) (iblk V c 0 t) (iblk V c 1 t) (iblk V c 2 t) xs

abbrev rdO (L : Pcs (F := F) S1x10000x128) : Vec F S1x10000x128 .f32 := VO_3.read (Elt F) (VO_3.writes (Elt F) VO_3.junk L)
abbrev rdS (L : Pcs (F := F) S10000x128) : Vec F S10000x128 .f32 := VS.read (Elt F) (VS.writes (Elt F) VS.junk L)

-- what a trip's stores leave: in the output block and in the running sum
abbrev rd {P : Pcs (F := F) S1x10000x128 → Pcs (F := F) S10000x128 → Prop}
    (r : Σ' L3, { LS // P L3 LS }) : Vec F S1x10000x128 .f32 × Vec F S10000x128 .f32 := (rdO r.1, rdS r.2.1)

-- after trip n: a first trip starts afresh from its own blocks, any other continues from what trip n - 1 left in the running sum
def outsAt (c : Dev nD) : (n : ℕ) → n < cfg2.N → Vec F S1x10000x128 .f32 × Vec F S10000x128 .f32
  | 0, hn => rd (runA V c ⟨0, hn⟩ (Nat.zero_mod _) (by show ¬0 % 1250 = 1249; omega))
  | n + 1, hn =>
    if h0 : (n + 1) % 1250 = 0 then rd (runA V c ⟨n + 1, hn⟩ h0 (by show ¬(n + 1) % 1250 = 1249; omega))
    else if h1 : (n + 1) % 1250 = 1249 then rd (runC V c ⟨n + 1, hn⟩ h0 h1 (outsAt c n (Nat.lt_of_succ_lt hn)).2)
    else rd (runB V c ⟨n + 1, hn⟩ h0 h1 (outsAt c n (Nat.lt_of_succ_lt hn)).2)

abbrev prev (c : Dev nD) (t : Fin cfg2.N) : Vec F S10000x128 .f32 :=
  (outsAt V c (t.val - 1) (Nat.lt_of_le_of_lt (Nat.sub_le _ _) t.isLt)).2

theorem outsAt_A (c : Dev nD) (t : Fin cfg2.N) (h0 : t.val % 1250 = 0) (h1 : ¬t.val % 1250 = 1249) :
    outsAt V c t.val t.isLt = rd (runA V c t h0 h1) := by
  obtain ⟨n, hn⟩ := t
  cases n with
  | zero => rfl
  | succ n => exact dif_pos h0

theorem outsAt_B (c : Dev nD) (t : Fin cfg2.N) (h0 : ¬t.val % 1250 = 0) (h1 : ¬t.val % 1250 = 1249) :
    outsAt V c t.val t.isLt = rd (runB V c t h0 h1 (prev V c t)) := by
  obtain ⟨n, hn⟩ := t
  cases n with
  | zero => exact absurd (Nat.zero_mod _) h0
  | succ n => exact (dif_neg h0).trans (dif_neg h1)

theorem outsAt_C (c : Dev nD) (t : Fin cfg2.N) (h0 : ¬t.val % 1250 = 0) (h1 : t.val % 1250 = 1249) :
    outsAt V c t.val t.isLt = rd (runC V c t h0 h1 (prev V c t)) := by
  obtain ⟨n, hn⟩ := t
  cases n with
  | zero => exact absurd (Nat.zero_mod _) h0
  | succ n => exact (dif_neg h0).trans (dif_pos h1)

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ restBut (F := F) c) ∗ (∃ r, prngReg c r))

theorem PhiS_pos (c : Dev nD) (n : ℕ) (h : n ≤ cfg2.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

-- between trips the running sum holds some contents: all a first trip asks for, and all that is kept at the end
theorem PhiS_any (c : Dev nD) (n : ℕ) (h : n ≤ cfg2.N) :
    PhiS V c n h ⊢ iprop(iprop((∃ d, owns (c : Thread nD τ) scM fullShare d) ∗ restBut (F := F) c) ∗ (∃ r, prngReg c r)) := by
  cases n with
  | zero => rw [show PhiS V c 0 h = Pipeline.ΦA spec2 c from rfl, PhiA_eq]
  | succ n =>
    change iprop(iprop(_ ∗ _) ∗ _) ⊢ _
    iintro ⟨⟨HS, HR⟩, Hg⟩
    iframe HR Hg
    iexists _; iexact HS

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_3 (c : Dev nD) (t : Fin cfg2.N) : (dat V c).after 3 t = (outsAt V c t.val t.isLt).1 := by dsimp only [dat]

theorem before_in (c : Dev nD) (t : Fin cfg2.N) :
    (∀ d, (dat V c).before 0 t d = iblk V c 0 t) ∧ (∀ d, (dat V c).before 1 t d = iblk V c 1 t) ∧ (∀ d, (dat V c).before 2 t d = iblk V c 2 t) := by
  refine ⟨fun d => ?_, fun d => ?_, fun d => ?_⟩ <;>
    exact ((dat V c).before_in_eq_fetched _ rfl (fun _ => rfl) (fun _ _ _ => rfl) (fun t => by dsimp only [dat]; unfold Dat.blockOf iblk; try rfl) t d).trans
      (by unfold Dat.fetched Dat.blockOf iblk; dsimp only [dat]; try rfl)

theorem leaves_in (c : Dev nD) (t : Fin cfg2.N) :
    (dat V c).leavesExact 0 t = owns (c : Thread nD τ) (ms_0 t) fullShare (iblk V c 0 t)
      ∧ (dat V c).leavesExact 1 t = owns (c : Thread nD τ) (ms_1 t) fullShare (iblk V c 1 t)
      ∧ (dat V c).leavesExact 2 t = owns (c : Thread nD τ) (ms_2 t) fullShare (iblk V c 2 t) := by
  refine ⟨?_, ?_, ?_⟩ <;> (unfold Dat.leavesExact; simp only [liveAt_0 t, liveAt_1 t, liveAt_2 t]; rfl)

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

-- what covering writes leave does not depend on what was there before
theorem owns_writes (c : Dev nD) {S : Shape} (M : Memref sig .tc .vmem S .f32) (v' : View sig .tc .vmem S .f32) (L : Pcs (F := F) S)
    (hL : View.Piece.tiledL L S.size = true) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩; iexists _; isplitr
  swap; · iexact H
  ipureintro; exact View.read_writes_of_cover _ _ _ _ _ (View.cover_of_tiledL _ _ hL)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [(before_in V c t).1, (before_in V c t).2.1, (before_in V c t).2.2]
  rw [show (dat V c).owesAt () t.succ = (dat V c).owesAt () t.castSucc from rfl,
    show (dat V c).Φ t.succ = iprop(iprop(owns (c : Thread nD τ) scM fullShare ((outsAt V c t.val t.isLt).2) ∗ restBut (F := F) c) ∗ (∃ r, prngReg c r)) from rfl,
    PhiS_castSucc V c t]
  simp only [(leaves_in V c t).1, (leaves_in V c t).2.1, (leaves_in V c t).2.2]
  by_cases h1 : t.val % 1250 = 1249
  · have h0 : ¬t.val % 1250 = 0 := by omega
    rw [show (dat V c).leavesExact 3 t = owns (c : Thread nD τ) (ms_3 t) fullShare ((dat V c).after 3 t) from by
      unfold Dat.leavesExact; rw [live_3 t h1], after_3]
    rw [outsAt_C V c t h0 h1, PhiS_pos V c _ _ (fun hz => h0 (by rw [hz]))]
    dsimp only [rd]
    iintro ⟨⟨⟨HS, HR⟩, Hg⟩, Ho, ⟨%d0, H0⟩, ⟨%d1, H1⟩, ⟨%d2, H2⟩, ⟨%d3, H3⟩⟩
    iapply ((runC V c t h0 h1 (prev V c t)).2.2 Set.univ _)
    iframe H0 H1 H2 HS
    isplitl [H3]; · iexists _; iexact H3
    iintro ⟨H0, H1, H2, H3, HS⟩
    iframe HR Hg Ho H0 H1 H2
    isplitl [HS]
    · iapply owns_writes c scM VS (runC V c t h0 h1 _).2.1 (by sl_kernel_rfl); iexact HS
    iapply owns_writes c (ms_3 t) VO_3 (runC V c t h0 h1 _).1 (by sl_kernel_rfl); iexact H3
  · rw [Dat.leavesExact_idle (dat V c) 3 t (idle_3 t h1) (noFlush_3 t h1)]
    by_cases h0 : t.val % 1250 = 0
    · rw [outsAt_A V c t h0 h1]
      dsimp only [rd]
      refine (sep_mono (PhiS_any V c _ _) .rfl).trans ?_
      iintro ⟨⟨⟨HS, HR⟩, Hg⟩, Ho, ⟨%d0, H0⟩, ⟨%d1, H1⟩, ⟨%d2, H2⟩, ⟨%d3, H3⟩⟩
      iapply ((runA V c t h0 h1).2.2 _ Set.univ _)
      iframe H0 H1 H2 H3 HS
      iintro ⟨H0, H1, H2, H3, HS⟩
      iframe HR Hg Ho H0 H1 H2
      isplitl [HS]
      · iapply owns_writes c scM VS (runA V c t h0 h1).2.1 (by sl_kernel_rfl); iexact HS
      iexists _; iexact H3
    · rw [outsAt_B V c t h0 h1, PhiS_pos V c _ _ (fun hz => h0 (by rw [hz]))]
      dsimp only [rd]
      iintro ⟨⟨⟨HS, HR⟩, Hg⟩, Ho, ⟨%d0, H0⟩, ⟨%d1, H1⟩, ⟨%d2, H2⟩, ⟨%d3, H3⟩⟩
      iapply ((runB V c t h0 h1 (prev V c t)).2.2 _ Set.univ _)
      iframe H0 H1 H2 H3 HS
      iintro ⟨H0, H1, H2, H3, HS⟩
      iframe HR Hg Ho H0 H1 H2
      isplitl [HS]
      · iapply owns_writes c scM VS (runB V c t h0 h1 _).2.1 (by sl_kernel_rfl); iexact HS
      iexists _; iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = Pipeline.ΦA spec2 c from rfl]

theorem hout (c : Dev nD) : (dat V c).Φ (Fin.last cfg2.N) ⊢ Pipeline.ΦA spec2 c := by
  rw [PhiA_eq]
  exact PhiS_any V c (Fin.last cfg2.N).val (Nat.le_of_lt_succ (Fin.last cfg2.N).isLt)

end Cert.Kernel.Fr2

end
-- ==== Proof.KComb1.lean ====
import proofs.«409789_j50697793962364_3_alg».proof.Proof.Gen.Kernel.Launch
import proofs.«409789_j50697793962364_3_alg».proof.Proof.Gen.Kernel.Skeleton
import proofs.«409789_j50697793962364_3_alg».proof.Proof.Gen.Kernel.Points
import Idealize.ShloMosaic.Lib.Pipeline.FrameBody
import Idealize.ShloMosaic.Lib.Tactic

noncomputable section

namespace Cert.Kernel.Comb

open Cert.Kernel.Gen Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev rF : Rect S1000x128 := Rect.unit (s := S1000x128) ![0, 0] S1000x128.size inb_S1000x128_S1000x128_0_0
abbrev rA0 : Rect S2x1000x128 := Rect.unit (s := S2x1000x128) ![0, 0, 0] S1x1000x128.size inb_S2x1000x128_S1x1000x128_0_0_0
abbrev rA1 : Rect S2x1000x128 := Rect.unit (s := S2x1000x128) ![1, 0, 0] S1x1000x128.size inb_S2x1000x128_S1x1000x128_1_0_0
abbrev rW : Rect S128x128 := Rect.unit (s := S128x128) ![0, 0] S128x128.size inb_S128x128_S128x128_0_0
abbrev rB : Rect S128 := Rect.unit (s := S128) ![0] S128.size inb_S128_S128_0

abbrev Pay (F : FTy → Type) [FloatOps F] :=
  Vec F S1x1000x128 .f32 → Vec F S1x1000x128 .f32 → Vec F S1000x128 .f32 → Vec F S128x128 .f32 → Vec F S128 .f32 → FVec F S1000x128 .f32

def skel (pay : Pay F) (a1 : Memref sig .tc .vmem S1000x128 .f32) (a2 : Memref sig .tc .vmem S2x1000x128 .f32) (a3 : Memref sig .tc .vmem S128x128 .f32)
    (a4 : Memref sig .tc .vmem S128 .f32) (a5 : Memref sig .tc .vmem S1000x128 .f32) : Prog (TpuEff nD τ sig (Elt F) Λ₀ .tc) PUnit := do
  let v0 : Vec F S1x1000x128 .f32 ← Prog.lift (.load a2 rA0.toLoadRect (View.loadsAt_vmem h_S1x1000x128))
  let v2 : Vec F S1x1000x128 .f32 ← Prog.lift (.load a2 rA1.toLoadRect (View.loadsAt_vmem h_S1x1000x128))
  let v5 : Vec F S1000x128 .f32 ← Prog.lift (.load a1 rF.toLoadRect (View.loadsAt_vmem h_S1000x128))
  let v8 : Vec F S128x128 .f32 ← Prog.lift (.load a3 rW.toLoadRect (View.loadsAt_vmem h_S128x128))
  let v11 : Vec F S128 .f32 ← Prog.lift (.load a4 rB.toLoadRect (View.loadsAt_vmem h_S128))
  let _ : Vec F S1000x128 .f32 ← Prog.lift (.load a5 rF.toLoadRect (View.loadsAt_vmem h_S1000x128))
  Prog.lift (.store a5 rF (pay v0 v2 v5 v8 v11) Finset.univ (View.stores_vmem_bits_univ h_S1000x128 rfl) (.inl rfl))
  pure ⟨⟩

def outOf (pay : Pay F) (x0 : Vec F S1000x128 .f32) (x1 : Vec F S2x1000x128 .f32) (x2 : Vec F S128x128 .f32) (x3 : Vec F S128 .f32) : Vec F S1000x128 .f32 :=
  View.canon [⟨rF, pay (View.ld x1 rA0) (View.ld x1 rA1) (View.ld x0 rF) (View.ld x2 rW) (View.ld x3 rB)⟩]

-- the one stored piece covers the tile, so the tile reads as that piece's canonical contents
theorem sound_skel (pay : Pay F) (c : Dev nD) (E : Set ℕ) (a1 : Memref sig .tc .vmem S1000x128 .f32) (a2 : Memref sig .tc .vmem S2x1000x128 .f32)
    (a3 : Memref sig .tc .vmem S128x128 .f32) (a4 : Memref sig .tc .vmem S128 .f32) (a5 : Memref sig .tc .vmem S1000x128 .f32)
    {D0 D1 D2 D3 D4 : Type} {g0 : D0 → Vec F S1000x128 .f32} {g1 : D1 → Vec F S2x1000x128 .f32} {g2 : D2 → Vec F S128x128 .f32}
    {g3 : D3 → Vec F S128 .f32} {g4 : D4 → Vec F S1000x128 .f32} {x0 x1 x2 x3}
    (e0 : ∀ d, g0 d = x0) (e1 : ∀ d, g1 d = x1) (e2 : ∀ d, g2 d = x2) (e3 : ∀ d, g3 d = x3) (R R' : sProp 𝕄) :
    iprop(R ∗ R' ∗ (∃ d, owns (c : Thread nD τ) a1 fullShare (g0 d)) ∗ (∃ d, owns (c : Thread nD τ) a2 fullShare (g1 d))
        ∗ (∃ d, owns (c : Thread nD τ) a3 fullShare (g2 d)) ∗ (∃ d, owns (c : Thread nD τ) a4 fullShare (g3 d))
        ∗ (∃ d, owns (c : Thread nD τ) a5 fullShare (g4 d)))
      ⊢ wp frame (wpE (defs₀ (F := F)) Variants.none c none) E (skel pay a1 a2 a3 a4 a5) fun _ =>
        iprop(R ∗ R' ∗ owns (c : Thread nD τ) a1 fullShare x0 ∗ owns (c : Thread nD τ) a2 fullShare x1 ∗ owns (c : Thread nD τ) a3 fullShare x2
          ∗ owns (c : Thread nD τ) a4 fullShare x3 ∗ owns (c : Thread nD τ) a5 fullShare (outOf pay x0 x1 x2 x3)) := by
  unfold skel
  conv_lhs => simp only [owns, e0, e1, e2, e3]
  iintro ⟨HR, HR', ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe HR HR'
  isplitl [H0]; · iapply owns_intro $$ H0
  isplitl [H1]; · iapply owns_intro $$ H1
  isplitl [H2]; · iapply owns_intro $$ H2
  isplitl [H3]; · iapply owns_intro $$ H3
  unfold owns
  iexists _; iframe H4
  ipureintro
  exact View.read_writes_eq_canon _ _ _ (View.cover_of_tiled _ S1000x128.size (by rfl))

end Cert.Kernel.Comb

namespace Cert.Kernel.Fr1

open Cert.Kernel.Gen Cert.Kernel.Comb Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem cc1_eq (i : grid1.Coords) (a1 h1 a2 h2 a3 h3 a4 h4 a5 h5) :
    cc1__combine_kernel (F := F) i a1 h1 a2 h2 a3 h3 a4 h4 a5 h5 = skel k1_pay1 a1 a2 a3 a4 a5 := by
  rw [cc1__combine_kernel_eq_skeleton]; rfl

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf k1_pay1 (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := rfl

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W1, bigSep_W1]
  show _ ⊢ wp _ _ _ (bodyAt1 t) _
  unfold bodyAt1
  rw [cc1_eq]
  dsimp only [dat]
  exact sound_skel k1_pay1 c _ _ _ _ _ _ (before_0 V c t) (before_1 V c t) (before_2 V c t) (before_3 V c t) _ _

end Cert.Kernel.Fr1

end
-- ==== Proof.KComb3.lean ====
import proofs.«409789_j50697793962364_3_alg».proof.Proof.KComb1

noncomputable section

namespace Cert.Kernel.Fr3

open Cert.Kernel.Gen Cert.Kernel.Comb Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem cc3_eq (i : grid3.Coords) (a1 h1 a2 h2 a3 h3 a4 h4 a5 h5) :
    cc3__combine_kernel (F := F) i a1 h1 a2 h2 a3 h3 a4 h4 a5 h5 = skel k3_pay1 a1 a2 a3 a4 a5 := by
  rw [cc3__combine_kernel_eq_skeleton]; rfl

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf k3_pay1 (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := rfl

theorem before_0 (c : Dev nD) (t : Fin cfg3.N) (d) : (dat V c).before 0 t d = iblk V c 0 t :=
  (dat V c).before_in_eq_fetched 0 rfl (fun _ => rfl) (fun _ _ _ => rfl) (fun _ => rfl) t d
theorem before_1 (c : Dev nD) (t : Fin cfg3.N) (d) : (dat V c).before 1 t d = iblk V c 1 t :=
  (dat V c).before_in_eq_fetched 1 rfl (fun _ => rfl) (fun _ _ _ => rfl) (fun _ => rfl) t d
theorem before_2 (c : Dev nD) (t : Fin cfg3.N) (d) : (dat V c).before 2 t d = iblk V c 2 t :=
  (dat V c).before_in_eq_fetched 2 rfl (fun _ => rfl) (fun _ _ _ => rfl) (fun _ => rfl) t d
theorem before_3 (c : Dev nD) (t : Fin cfg3.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W3, bigSep_W3]
  show _ ⊢ wp _ _ _ (bodyAt3 t) _
  unfold bodyAt3
  rw [cc3_eq]
  dsimp only [dat]
  exact sound_skel k3_pay1 c _ _ _ _ _ _ (before_0 V c t) (before_1 V c t) (before_2 V c t) (before_3 V c t) _ _

end Cert.Kernel.Fr3

end
-- ==== Proof.KRegs.lean ====
import proofs.«409789_j50697793962364_3_alg».proof.Proof.KRunCond
import proofs.«409789_j50697793962364_3_alg».proof.Proof.KAggDat0
import proofs.«409789_j50697793962364_3_alg».proof.Proof.KAggDat2
import proofs.«409789_j50697793962364_3_alg».proof.Proof.KComb1
import proofs.«409789_j50697793962364_3_alg».proof.Proof.KComb3

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Seg BodyObligation)

variable {F : FTy → Type} [FloatOps F]

local notation "𝕄" => MT nD τ sig Unit (Elt F) ℕ (UR sig nD τ) ℕ

variable (m : (ℓ : Loc nD τ sig) → Buf (Elt F) ℓ)

abbrev E5 : (c : Dev nD) → (b : Ref sig .tc) → Buf (Elt F) ((c : Thread nD τ).loc b) := fun c b => V5 m c b
abbrev outs6 : Outs (F := F) := fun _ r c =>
  Pipeline.withArrays spec0 c (V5 m c) (fun w => (Fr0.dat (E5 m) c).arrAt w cfg0.N) r
abbrev E6 : (c : Dev nD) → (b : Ref sig .tc) → Buf (Elt F) ((c : Thread nD τ).loc b) := fun c b => V6 m (outs6 m) c b
abbrev outs7 : Outs (F := F) := fun J r c => match J with
  | 6 => outs6 m 6 r c
  | _ => Pipeline.withArrays spec1 c (V6 m (outs6 m) c) (fun w => (Fr1.dat (E6 m) c).arrAt w cfg1.N) r
abbrev E8 : (c : Dev nD) → (b : Ref sig .tc) → Buf (Elt F) ((c : Thread nD τ).loc b) := fun c b => V8 m (outs7 m) c b
abbrev outs9 : Outs (F := F) := fun J r c => match J with
  | 6 => outs7 m 6 r c
  | 7 => outs7 m 7 r c
  | _ => Pipeline.withArrays spec2 c (V8 m (outs7 m) c) (fun w => (Fr2.dat (E8 m) c).arrAt w cfg2.N) r
abbrev E9 : (c : Dev nD) → (b : Ref sig .tc) → Buf (Elt F) ((c : Thread nD τ).loc b) := fun c b => V9 m (outs9 m) c b
abbrev outs : Outs (F := F) := fun J r c => match J with
  | 6 => outs9 m 6 r c
  | 7 => outs9 m 7 r c
  | 9 => outs9 m 9 r c
  | _ => Pipeline.withArrays spec3 c (V9 m (outs9 m) c) (fun w => (Fr3.dat (E9 m) c).arrAt w cfg3.N) r

def pdats : (p : Fin 4) → (c : Dev nD) → Dat τ (Elt F) Unit ℕ (UR sig nD τ) ℕ (cfgs p) c
  | ⟨0, _⟩ => fun c => Fr0.dat (E5 m) c
  | ⟨1, _⟩ => fun c => Fr1.dat (E6 m) c
  | ⟨2, _⟩ => fun c => Fr2.dat (E8 m) c
  | ⟨3, _⟩ => fun c => Fr3.dat (E9 m) c

def reg0 := reg launch0 3 (by decide) (pd := pdats m) (V5 m) (V6 m (outs m)) (Fr0.body_obligation (E5 m)) (Fr0.A_eq (E5 m)) (Fr0.hin (E5 m)) (Fr0.hout (E5 m))
def reg1 := reg launch1 4 (by decide) (pd := pdats m) (V6 m (outs m)) (V7 m (outs m)) (Fr1.body_obligation (E6 m)) (Fr1.A_eq (E6 m)) (fun _ => .rfl) (fun _ => .rfl)
def reg2 := reg launch2 3 (by decide) (pd := pdats m) (V8 m (outs m)) (V9 m (outs m)) (Fr2.body_obligation (E8 m)) (Fr2.A_eq (E8 m)) (Fr2.hin (E8 m)) (Fr2.hout (E8 m))
def reg3 := reg launch3 4 (by decide) (pd := pdats m) (V9 m (outs m)) (V10 m (outs m)) (Fr3.body_obligation (E9 m)) (Fr3.A_eq (E9 m)) (fun _ => .rfl) (fun _ => .rfl)

abbrev u₀ := initOf (Pipeline.cells cfgs cellOf_inj) (Pipeline.launchToks cfgs cellOf_inj)

set_option backward.isDefEq.respectTransparency.types false in
theorem run_main (ρ : Dev nD → PrngReg) :
    θ_run defs (onTc (τ := τ) (main (F := F))) ⟨m, fun _ => 0, ρ⟩ (fun r => ∀ c : Dev nD, Ends m (outs m) c r.2) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m))
    (fun c Q => by rw [main_chain c, Seg.run_eq_chain]; exact .rfl)
    (fun c => by simp only [segs, Seg.pipes_host, Seg.pipes_region, Seg.pipes_nil]; decide) 0 (fun _ _ => rfl) (fun _ => (BI.emp : sProp 𝕄)) u₀
    (by rw [BI.bigSep_emp_const]; iintro Hu; imodintro; isplitl [Hu]
        · iapply (show (ownU u₀ : sProp 𝕄) ⊢ BI.own (emb₁ u₀) from .rfl); iexact Hu
        iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl sep_elim_right⟩)
    (hinit := Pipeline.initEach L lv fun c => ?_) (QY := Ends m (outs m)) (hfin := fun c s' => ?_) (hQ := fun _ h => h)
  · rw [← Pipeline.unscopedBufs_held]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      have g := fun (b : Ref sig .tc) hb => h (Proc.devRef .tc b) (Finset.mem_filter.mpr ⟨StableHlo.devRef_mem_tcRefs b, hb⟩)
      exact ⟨(g main_v13 (by decide)).trans (V10_main_v13 m _ c), (g main_arg0 (by decide)).trans (V10_main_arg0 m _ c),
        (g main_arg1 (by decide)).trans (V10_main_arg1 m _ c), (g main_arg2 (by decide)).trans (V10_main_arg2 m _ c),
        (g main_arg3 (by decide)).trans (V10_main_arg3 m _ c), (g main_arg4 (by decide)).trans (V10_main_arg4 m _ c),
        (g main_arg5 (by decide)).trans (V10_main_arg5 m _ c)⟩
    · iexact HSI

theorem frame (ρ : Dev nD → PrngReg) :
    θ_run defs (onTc (τ := τ) (main (F := F))) ⟨m, fun _ => 0, ρ⟩ (fun r => ∀ c : Dev nD, Kept m c r.2) :=
  (θ_run defs _ _).mono (fun _ h c => (h c).2) (run_main m ρ)

end Cert.Kernel.Fr

end
-- ==== Proof.RunCond.lean ====
import proofs.«409789_j50697793962364_3_alg».proof.Proof.Gen.KernelIdeal.Regions
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Seg BodyObligation)

variable {F : FTy → Type} [FloatOps F]

local notation "𝕄" => MT nD τ sig Unit (Elt F) ℕ (UR sig nD τ) ℕ

variable (m : (ℓ : Loc nD τ sig) → Buf (Elt F) ℓ)

abbrev Same (c : Dev nD) (s : MemSt nD τ sig (Elt F)) (b : Ref sig .tc) : Prop :=
  s.mem ((c.tc : Thread nD τ).loc b) = m ((c.tc : Thread nD τ).loc b)

abbrev Kept (c : Dev nD) (s : MemSt nD τ sig (Elt F)) : Prop :=
  Same m c s main_arg0 ∧ Same m c s main_arg1 ∧ Same m c s main_arg2 ∧ Same m c s main_arg3 ∧ Same m c s main_arg4 ∧ Same m c s main_arg5

abbrev Ends (o : Outs (F := F)) (c : Dev nD) (s : MemSt nD τ sig (Elt F)) : Prop :=
  s.mem ((c.tc : Thread nD τ).loc main_v13) = o 10 main_v13 c ∧ Kept m c s

theorem V10_main_v13 (o : Outs (F := F)) (c : Dev nD) : V10 m o c main_v13 = o 10 main_v13 c := by
  simp only [V10, Function.update_self]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

variable {p : Fin 4} (lf : Pipeline.LaunchFacts (nD := nD) (τ := τ) cfgs p) (o : Fin (cfgs p).W)
  (hio : ∀ w, w ≠ o → ((cfgs p).win w).isOut = false)
include lf hio

-- the update touches the output array's key alone: the other arrays' keys differ from it, and an input array ends as it began
theorem exitVal {c : Dev nD} (d : Dat τ (Elt F) Unit ℕ (UR sig nD τ) ℕ (cfgs p) c) (V : Valuation τ sig (Elt F))
    (hA : ∀ w, d.A w = V (Pipeline.arrRef (cfgs p).spec w)) :
    let V' := Function.update V (Pipeline.arrRef (cfgs p).spec o) (Pipeline.withArrays (cfgs p).spec c V (d.arrAt · (cfgs p).N) (Pipeline.arrRef (cfgs p).spec o))
    (∀ w, d.arrAt w (cfgs p).N = V' (Pipeline.arrRef (cfgs p).spec w))
      ∧ ∀ b : Ref sig .tc, b ∉ Finset.univ.image (Pipeline.arrRef (cfgs p).spec) → V' b = V b := by
  refine ⟨fun w => ?_, fun b hb => Function.update_of_ne (fun e => hb (Finset.mem_image.mpr ⟨o, Finset.mem_univ _, (Proc.devRef_injective _ e).symm⟩)) _ _⟩
  by_cases h : w = o
  · subst h
    rw [Function.update_self]
    exact (Pipeline.withArrays_arr _ lf.win.arr_inj c V (d.arrAt · (cfgs p).N) w).symm
  · exact ((d.arrAt_in w (hio w h) _).trans (hA w)).trans (Function.update_of_ne (fun e => h (lf.win.arr_inj (Proc.devRef_injective _ e))) _ _).symm

variable {pd : (p : Fin 4) → (c : Dev nD) → Dat τ (Elt F) Unit ℕ (UR sig nD τ) ℕ (cfgs p) c}

set_option backward.isDefEq.respectTransparency.types false in
def reg (V V' : (c : Dev nD) → Valuation τ sig (Elt F))
    (hb : ∀ c, BodyObligation (pd p c) (defs₀ (F := F)) Variants.none () Set.univ)
    (hA : ∀ c w, (pd p c).A w = V c (Pipeline.arrRef (cfgs p).spec w))
    (hin : ∀ c, Pipeline.ΦA (cfgs p).spec c ⊢ (pd p c).Φ 0)
    (hout : ∀ c, (pd p c).Φ (Fin.last _) ⊢ Pipeline.ΦA (cfgs p).spec c)
    (hV' : ∀ c, V' c = Function.update (V c) (Pipeline.arrRef (cfgs p).spec o) (Pipeline.withArrays (cfgs p).spec c (V c) ((pd p c).arrAt · (cfgs p).N) (Pipeline.arrRef (cfgs p).spec o)) := by intros; rfl)
    (hq : ∀ c w, (pd p c).q w = fullShare := by intros; rfl) (ho : ∀ c t, (pd p c).owed t = 0 := by intros; rfl)
    (hr : ∀ c t, (pd p c).recorded t = Set.univ := by intros; rfl) :
    Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (hr c 0 ▸ trivial)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    obtain ⟨hF, hrest⟩ := hV' c ▸ exitVal lf o hio (pd p c) (V c) (hA c)
    have hjoin := Pipeline.unscopedBufs_of_arrays (p := p) (pcfgs (F := F)) adm lf.win lf.arr_whole c pd ((pd p c).share_full (hq c)) (fun b => V c b) (fun b => V' c b) ((pd p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

end Cert.KernelIdeal.Fr

end
-- ==== Proof.AggRuns0.lean ====
import proofs.«409789_j50697793962364_3_alg».proof.Proof.Gen.KernelIdeal.Launch
import proofs.«409789_j50697793962364_3_alg».proof.Proof.Gen.KernelIdeal.Skeleton
import proofs.«409789_j50697793962364_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 1250 = 0 :=
  (by decide +kernel : ∀ t : Fin grid0.N, condFirst (grid0.coords t) ↔ t.val % 1250 = 0)

abbrev condLast (i : grid0.Coords) : Prop := k0_cond2 i = 1#1
theorem hcondLast : ∀ t : Fin cfg0.N, condLast (grid0.coords t) ↔ t.val % 1250 = 1249 :=
  (by decide +kernel : ∀ t : Fin grid0.N, condLast (grid0.coords t) ↔ t.val % 1250 = 1249)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem idle_3 : ∀ t : Fin cfg0.N, ¬t.val % 1250 = 1249 → cfg0.idle 3 (grid0.coords t) = true := by decide +kernel
theorem noFlush_3 : ∀ t : Fin cfg0.N, ¬t.val % 1250 = 1249 → (cfg0.win 3).flush t = false := by decide +kernel
theorem live_3 : ∀ t : Fin cfg0.N, t.val % 1250 = 1249 → cfg0.idle 3 (grid0.coords t) = false := by decide +kernel

abbrev VO_3 : View sig .tc .vmem S1x10000x128 .f32 := (Memref.whole cc0_stg3_0 : Memref sig .tc .vmem S1x10000x128 .f32).view
abbrev ms_0 (t : Fin cfg0.N) : Memref sig .tc .vmem S10000x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x256 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x256 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x10000x128 .f32 := win0_3.stage (cfg0.slots t 3)
abbrev hs_3 (t : Fin cfg0.N) : (ms_3 t).IsWhole := hstage0_3 ((cfg0.slots t 3).cast nbuf0_3)
abbrev scM : Memref sig .tc .vmem S10000x128 .f32 := Memref.whole cc0_scratch0
abbrev VS : View sig .tc .vmem S10000x128 .f32 := scM.view

abbrev restBut (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restBut c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

-- a whole buffer that holds the contents made from `x` reads as `x`
theorem owns_unread (c : Dev nD) {S : Shape} {e : EltTy} {M : Memref sig .tc .vmem S e} (hM : M.IsWhole) (x : Vec F S e) :
    (M.view.loc (c : Thread nD τ) ↦[M.view.set]{fullShare} hM.unread x : sProp 𝕄) ⊢ iprop(∃ f, ⌜M.view.read (Elt F) f = x⌝ ∗ M.view.loc (c : Thread nD τ) ↦[M.view.set]{fullShare} f) := by
  iintro H; iexists _; isplitr; · ipureintro; exact hM.read_unread _
  iexact H

variable (c : Dev nD) (i : grid0.Coords) (arg2 : Memref sig .tc .vmem S10000x128 .bf16) (harg2 : arg2.IsWhole)
  (arg3 : Memref sig .tc .vmem S1x256 .i32) (harg3 : arg3.IsWhole) (arg4 : Memref sig .tc .vmem S1x256 .i32) (harg4 : arg4.IsWhole)
  (arg5 : Memref sig .tc .vmem S1x10000x128 .f32) (harg5 : arg5.IsWhole) (arg6 : Memref sig .tc .vmem S10000x128 .f32) (harg6 : arg6.IsWhole)

set_option maxHeartbeats 1000000 in
noncomputable def kernelRun_A (hc0 : condFirst i) (hc1 : ¬condLast i)
    (x0 : Vec F S10000x128 .bf16) (x1 : Vec F S1x256 .i32) (x2 : Vec F S1x256 .i32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xi3 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_B (hc0 : ¬condFirst i) (hc1 : ¬condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨[], ?_, fun xi3 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_C (hc0 : ¬condFirst i) (hc1 : condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__agg_kernel i arg2 harg2 arg3 harg3 arg4 harg4 arg5 harg5 arg6 harg6) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iexists _; iexact H3
    iexists _; iexact HS

end Cert.KernelIdeal.Fr0

end
-- ==== Proof.AggDat0.lean ====
import proofs.«409789_j50697793962364_3_alg».proof.Proof.AggRuns0

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev Pcs (S : Shape) := List (View.Piece (Elt F) S .f32)

def runA (c : Dev nD) (t : Fin cfg0.N) (h0 : t.val % 1250 = 0) (h1 : ¬t.val % 1250 = 1249) :=
  kernelRun_A c (grid0.coords t) (ms_0 t) (hs_0 t) (ms_1 t) (hs_1 t) (ms_2 t) (hs_2 t) (ms_3 t) (hs_3 t) scM (Memref.isWhole_whole _)
    ((hcondFirst t).mpr h0) (fun h => h1 ((hcondLast t).mp h)) (iblk V c 0 t) (iblk V c 1 t) (iblk V c 2 t)

def runB (c : Dev nD) (t : Fin cfg0.N) (h0 : ¬t.val % 1250 = 0) (h1 : ¬t.val % 1250 = 1249) (xs : Vec F S10000x128 .f32) :=
  kernelRun_B c (grid0.coords t) (ms_0 t) (hs_0 t) (ms_1 t) (hs_1 t) (ms_2 t) (hs_2 t) (ms_3 t) (hs_3 t) scM (Memref.isWhole_whole _)
    (fun h => h0 ((hcondFirst t).mp h)) (fun h => h1 ((hcondLast t).mp h)) (iblk V c 0 t) (iblk V c 1 t) (iblk V c 2 t) xs

def runC (c : Dev nD) (t : Fin cfg0.N) (h0 : ¬t.val % 1250 = 0) (h1 : t.val % 1250 = 1249) (xs : Vec F S10000x128 .f32) :=
  kernelRun_C c (grid0.coords t) (ms_0 t) (hs_0 t) (ms_1 t) (hs_1 t) (ms_2 t) (hs_2 t) (ms_3 t) (hs_3 t) scM (Memref.isWhole_whole _)
    (fun h => h0 ((hcondFirst t).mp h)) ((hcondLast t).mpr h1) (iblk V c 0 t) (iblk V c 1 t) (iblk V c 2 t) xs

abbrev rdO (L : Pcs (F := F) S1x10000x128) : Vec F S1x10000x128 .f32 := VO_3.read (Elt F) (VO_3.writes (Elt F) VO_3.junk L)
abbrev rdS (L : Pcs (F := F) S10000x128) : Vec F S10000x128 .f32 := VS.read (Elt F) (VS.writes (Elt F) VS.junk L)

-- what a trip's stores leave: in the output block and in the running sum
abbrev rd {P : Pcs (F := F) S1x10000x128 → Pcs (F := F) S10000x128 → Prop}
    (r : Σ' L3, { LS // P L3 LS }) : Vec F S1x10000x128 .f32 × Vec F S10000x128 .f32 := (rdO r.1, rdS r.2.1)

-- after trip n: a first trip starts afresh from its own blocks, any other continues from what trip n - 1 left in the running sum
def outsAt (c : Dev nD) : (n : ℕ) → n < cfg0.N → Vec F S1x10000x128 .f32 × Vec F S10000x128 .f32
  | 0, hn => rd (runA V c ⟨0, hn⟩ (Nat.zero_mod _) (by show ¬0 % 1250 = 1249; omega))
  | n + 1, hn =>
    if h0 : (n + 1) % 1250 = 0 then rd (runA V c ⟨n + 1, hn⟩ h0 (by show ¬(n + 1) % 1250 = 1249; omega))
    else if h1 : (n + 1) % 1250 = 1249 then rd (runC V c ⟨n + 1, hn⟩ h0 h1 (outsAt c n (Nat.lt_of_succ_lt hn)).2)
    else rd (runB V c ⟨n + 1, hn⟩ h0 h1 (outsAt c n (Nat.lt_of_succ_lt hn)).2)

abbrev prev (c : Dev nD) (t : Fin cfg0.N) : Vec F S10000x128 .f32 :=
  (outsAt V c (t.val - 1) (Nat.lt_of_le_of_lt (Nat.sub_le _ _) t.isLt)).2

theorem outsAt_A (c : Dev nD) (t : Fin cfg0.N) (h0 : t.val % 1250 = 0) (h1 : ¬t.val % 1250 = 1249) :
    outsAt V c t.val t.isLt = rd (runA V c t h0 h1) := by
  obtain ⟨n, hn⟩ := t
  cases n with
  | zero => rfl
  | succ n => exact dif_pos h0

theorem outsAt_B (c : Dev nD) (t : Fin cfg0.N) (h0 : ¬t.val % 1250 = 0) (h1 : ¬t.val % 1250 = 1249) :
    outsAt V c t.val t.isLt = rd (runB V c t h0 h1 (prev V c t)) := by
  obtain ⟨n, hn⟩ := t
  cases n with
  | zero => exact absurd (Nat.zero_mod _) h0
  | succ n => exact (dif_neg h0).trans (dif_neg h1)

theorem outsAt_C (c : Dev nD) (t : Fin cfg0.N) (h0 : ¬t.val % 1250 = 0) (h1 : t.val % 1250 = 1249) :
    outsAt V c t.val t.isLt = rd (runC V c t h0 h1 (prev V c t)) := by
  obtain ⟨n, hn⟩ := t
  cases n with
  | zero => exact absurd (Nat.zero_mod _) h0
  | succ n => exact (dif_neg h0).trans (dif_pos h1)

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restBut (F := F) c) ∗ (∃ r, prngReg c r))

theorem PhiS_pos (c : Dev nD) (n : ℕ) (h : n ≤ cfg0.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

-- between trips the running sum holds some contents: all a first trip asks for, and all that is kept at the end
theorem PhiS_any (c : Dev nD) (n : ℕ) (h : n ≤ cfg0.N) :
    PhiS V c n h ⊢ iprop(iprop((∃ d, owns (c : Thread nD τ) scM fullShare d) ∗ restBut (F := F) c) ∗ (∃ r, prngReg c r)) := by
  cases n with
  | zero => rw [show PhiS V c 0 h = Pipeline.ΦA spec0 c from rfl, PhiA_eq]
  | succ n =>
    change iprop(iprop(_ ∗ _) ∗ _) ⊢ _
    iintro ⟨⟨HS, HR⟩, Hg⟩
    iframe HR Hg
    iexists _; iexact HS

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_3 (c : Dev nD) (t : Fin cfg0.N) : (dat V c).after 3 t = (outsAt V c t.val t.isLt).1 := by dsimp only [dat]

theorem before_in (c : Dev nD) (t : Fin cfg0.N) :
    (∀ d, (dat V c).before 0 t d = iblk V c 0 t) ∧ (∀ d, (dat V c).before 1 t d = iblk V c 1 t) ∧ (∀ d, (dat V c).before 2 t d = iblk V c 2 t) := by
  refine ⟨fun d => ?_, fun d => ?_, fun d => ?_⟩ <;>
    exact ((dat V c).before_in_eq_fetched _ rfl (fun _ => rfl) (fun _ _ _ => rfl) (fun t => by dsimp only [dat]; unfold Dat.blockOf iblk; try rfl) t d).trans
      (by unfold Dat.fetched Dat.blockOf iblk; dsimp only [dat]; try rfl)

theorem leaves_in (c : Dev nD) (t : Fin cfg0.N) :
    (dat V c).leavesExact 0 t = owns (c : Thread nD τ) (ms_0 t) fullShare (iblk V c 0 t)
      ∧ (dat V c).leavesExact 1 t = owns (c : Thread nD τ) (ms_1 t) fullShare (iblk V c 1 t)
      ∧ (dat V c).leavesExact 2 t = owns (c : Thread nD τ) (ms_2 t) fullShare (iblk V c 2 t) := by
  refine ⟨?_, ?_, ?_⟩ <;> (unfold Dat.leavesExact; simp only [liveAt_0 t, liveAt_1 t, liveAt_2 t]; rfl)

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

-- what covering writes leave does not depend on what was there before
theorem owns_writes (c : Dev nD) {S : Shape} (M : Memref sig .tc .vmem S .f32) (v' : View sig .tc .vmem S .f32) (L : Pcs (F := F) S)
    (hL : View.Piece.tiledL L S.size = true) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩; iexists _; isplitr
  swap; · iexact H
  ipureintro; exact View.read_writes_of_cover _ _ _ _ _ (View.cover_of_tiledL _ _ hL)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [(before_in V c t).1, (before_in V c t).2.1, (before_in V c t).2.2]
  rw [show (dat V c).owesAt () t.succ = (dat V c).owesAt () t.castSucc from rfl,
    show (dat V c).Φ t.succ = iprop(iprop(owns (c : Thread nD τ) scM fullShare ((outsAt V c t.val t.isLt).2) ∗ restBut (F := F) c) ∗ (∃ r, prngReg c r)) from rfl,
    PhiS_castSucc V c t]
  simp only [(leaves_in V c t).1, (leaves_in V c t).2.1, (leaves_in V c t).2.2]
  by_cases h1 : t.val % 1250 = 1249
  · have h0 : ¬t.val % 1250 = 0 := by omega
    rw [show (dat V c).leavesExact 3 t = owns (c : Thread nD τ) (ms_3 t) fullShare ((dat V c).after 3 t) from by
      unfold Dat.leavesExact; rw [live_3 t h1], after_3]
    rw [outsAt_C V c t h0 h1, PhiS_pos V c _ _ (fun hz => h0 (by rw [hz]))]
    dsimp only [rd]
    iintro ⟨⟨⟨HS, HR⟩, Hg⟩, Ho, ⟨%d0, H0⟩, ⟨%d1, H1⟩, ⟨%d2, H2⟩, ⟨%d3, H3⟩⟩
    iapply ((runC V c t h0 h1 (prev V c t)).2.2 Set.univ _)
    iframe H0 H1 H2 HS
    isplitl [H3]; · iexists _; iexact H3
    iintro ⟨H0, H1, H2, H3, HS⟩
    iframe HR Hg Ho H0 H1 H2
    isplitl [HS]
    · iapply owns_writes c scM VS (runC V c t h0 h1 _).2.1 (by sl_kernel_rfl); iexact HS
    iapply owns_writes c (ms_3 t) VO_3 (runC V c t h0 h1 _).1 (by sl_kernel_rfl); iexact H3
  · rw [Dat.leavesExact_idle (dat V c) 3 t (idle_3 t h1) (noFlush_3 t h1)]
    by_cases h0 : t.val % 1250 = 0
    · rw [outsAt_A V c t h0 h1]
      dsimp only [rd]
      refine (sep_mono (PhiS_any V c _ _) .rfl).trans ?_
      iintro ⟨⟨⟨HS, HR⟩, Hg⟩, Ho, ⟨%d0, H0⟩, ⟨%d1, H1⟩, ⟨%d2, H2⟩, ⟨%d3, H3⟩⟩
      iapply ((runA V c t h0 h1).2.2 _ Set.univ _)
      iframe H0 H1 H2 H3 HS
      iintro ⟨H0, H1, H2, H3, HS⟩
      iframe HR Hg Ho H0 H1 H2
      isplitl [HS]
      · iapply owns_writes c scM VS (runA V c t h0 h1).2.1 (by sl_kernel_rfl); iexact HS
      iexists _; iexact H3
    · rw [outsAt_B V c t h0 h1, PhiS_pos V c _ _ (fun hz => h0 (by rw [hz]))]
      dsimp only [rd]
      iintro ⟨⟨⟨HS, HR⟩, Hg⟩, Ho, ⟨%d0, H0⟩, ⟨%d1, H1⟩, ⟨%d2, H2⟩, ⟨%d3, H3⟩⟩
      iapply ((runB V c t h0 h1 (prev V c t)).2.2 _ Set.univ _)
      iframe H0 H1 H2 H3 HS
      iintro ⟨H0, H1, H2, H3, HS⟩
      iframe HR Hg Ho H0 H1 H2
      isplitl [HS]
      · iapply owns_writes c scM VS (runB V c t h0 h1 _).2.1 (by sl_kernel_rfl); iexact HS
      iexists _; iexact H3

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = Pipeline.ΦA spec0 c from rfl]

theorem hout (c : Dev nD) : (dat V c).Φ (Fin.last cfg0.N) ⊢ Pipeline.ΦA spec0 c := by
  rw [PhiA_eq]
  exact PhiS_any V c (Fin.last cfg0.N).val (Nat.le_of_lt_succ (Fin.last cfg0.N).isLt)

end Cert.KernelIdeal.Fr0

end
-- ==== Proof.AggRuns2.lean ====
import proofs.«409789_j50697793962364_3_alg».proof.Proof.Gen.KernelIdeal.Launch
import proofs.«409789_j50697793962364_3_alg».proof.Proof.Gen.KernelIdeal.Skeleton
import proofs.«409789_j50697793962364_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Fr2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev condFirst (i : grid2.Coords) : Prop := (Scalar.cmpi .ne (Scalar.extui (Scalar.cmpi .eq (BitVec.ofNat 32 (i 1).val) 0#32)) 0#32) = 1#1
theorem hcondFirst : ∀ t : Fin cfg2.N, condFirst (grid2.coords t) ↔ t.val % 1250 = 0 :=
  (by decide +kernel : ∀ t : Fin grid2.N, condFirst (grid2.coords t) ↔ t.val % 1250 = 0)

abbrev condLast (i : grid2.Coords) : Prop := k2_cond2 i = 1#1
theorem hcondLast : ∀ t : Fin cfg2.N, condLast (grid2.coords t) ↔ t.val % 1250 = 1249 :=
  (by decide +kernel : ∀ t : Fin grid2.N, condLast (grid2.coords t) ↔ t.val % 1250 = 1249)

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem idle_3 : ∀ t : Fin cfg2.N, ¬t.val % 1250 = 1249 → cfg2.idle 3 (grid2.coords t) = true := by decide +kernel
theorem noFlush_3 : ∀ t : Fin cfg2.N, ¬t.val % 1250 = 1249 → (cfg2.win 3).flush t = false := by decide +kernel
theorem live_3 : ∀ t : Fin cfg2.N, t.val % 1250 = 1249 → cfg2.idle 3 (grid2.coords t) = false := by decide +kernel

abbrev VO_3 : View sig .tc .vmem S1x10000x128 .f32 := (Memref.whole cc2_stg3_0 : Memref sig .tc .vmem S1x10000x128 .f32).view
abbrev ms_0 (t : Fin cfg2.N) : Memref sig .tc .vmem S10000x128 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1x256 .i32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x256 .i32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x10000x128 .f32 := win2_3.stage (cfg2.slots t 3)
abbrev hs_3 (t : Fin cfg2.N) : (ms_3 t).IsWhole := hstage2_3 ((cfg2.slots t 3).cast nbuf2_3)
abbrev scM : Memref sig .tc .vmem S10000x128 .f32 := Memref.whole cc2_scratch0
abbrev VS : View sig .tc .vmem S10000x128 .f32 := scM.view

abbrev restBut (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut c) :=
  Pipeline.scopedRest_split_of_list spec2 c [cc2_scratch0] (by decide) (by decide)

theorem PhiA_eq (c : Dev nD) :
    (Pipeline.ΦA spec2 c : sProp 𝕄)
      = iprop(iprop((∃ d, owns (c : Thread nD τ) scM fullShare d) ∗ restBut c) ∗ (∃ r, prngReg c r)) := by
  unfold Pipeline.ΦA; rw [scopedRest_split]; simp only [scM, owns_whole]; try rfl

-- a whole buffer that holds the contents made from `x` reads as `x`
theorem owns_unread (c : Dev nD) {S : Shape} {e : EltTy} {M : Memref sig .tc .vmem S e} (hM : M.IsWhole) (x : Vec F S e) :
    (M.view.loc (c : Thread nD τ) ↦[M.view.set]{fullShare} hM.unread x : sProp 𝕄) ⊢ iprop(∃ f, ⌜M.view.read (Elt F) f = x⌝ ∗ M.view.loc (c : Thread nD τ) ↦[M.view.set]{fullShare} f) := by
  iintro H; iexists _; isplitr; · ipureintro; exact hM.read_unread _
  iexact H

variable (c : Dev nD) (i : grid2.Coords) (arg2 : Memref sig .tc .vmem S10000x128 .bf16) (harg2 : arg2.IsWhole)
  (arg3 : Memref sig .tc .vmem S1x256 .i32) (harg3 : arg3.IsWhole) (arg4 : Memref sig .tc .vmem S1x256 .i32) (harg4 : arg4.IsWhole)
  (arg5 : Memref sig .tc .vmem S1x10000x128 .f32) (harg5 : arg5.IsWhole) (arg6 : Memref sig .tc .vmem S10000x128 .f32) (harg6 : arg6.IsWhole)

set_option maxHeartbeats 1000000 in
noncomputable def kernelRun_A (hc0 : condFirst i) (hc1 : ¬condLast i)
    (x0 : Vec F S10000x128 .bf16) (x1 : Vec F S1x256 .i32) (x2 : Vec F S1x256 .i32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨[], ?_, fun xi3 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_B (hc0 : ¬condFirst i) (hc1 : ¬condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (xi3 : Vec F S1x10000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨[], ?_, fun xi3 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    iexists _; iexact HS

set_option maxHeartbeats 1000000 in
noncomputable def kernelRun_C (hc0 : ¬condFirst i) (hc1 : condLast i)
    (x0 : Vec F S10000x128 .bf16) (x1 : Vec F S1x256 .i32) (x2 : Vec F S1x256 .i32) (xs : Vec F S10000x128 .f32) :
    Σ' (L3 : List (View.Piece (Elt F) S1x10000x128 .f32)), { LS : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__agg_kernel i arg2 harg2 arg3 harg3 arg4 harg4 arg5 harg5 arg6 harg6) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iexists _; iexact H3
    iexists _; iexact HS

end Cert.KernelIdeal.Fr2

end
-- ==== Proof.AggDat2.lean ====
import proofs.«409789_j50697793962364_3_alg».proof.Proof.AggRuns2

noncomputable section

namespace Cert.KernelIdeal.Fr2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev Pcs (S : Shape) := List (View.Piece (Elt F) S .f32)

def runA (c : Dev nD) (t : Fin cfg2.N) (h0 : t.val % 1250 = 0) (h1 : ¬t.val % 1250 = 1249) :=
  kernelRun_A c (grid2.coords t) (ms_0 t) (hs_0 t) (ms_1 t) (hs_1 t) (ms_2 t) (hs_2 t) (ms_3 t) (hs_3 t) scM (Memref.isWhole_whole _)
    ((hcondFirst t).mpr h0) (fun h => h1 ((hcondLast t).mp h)) (iblk V c 0 t) (iblk V c 1 t) (iblk V c 2 t)

def runB (c : Dev nD) (t : Fin cfg2.N) (h0 : ¬t.val % 1250 = 0) (h1 : ¬t.val % 1250 = 1249) (xs : Vec F S10000x128 .f32) :=
  kernelRun_B c (grid2.coords t) (ms_0 t) (hs_0 t) (ms_1 t) (hs_1 t) (ms_2 t) (hs_2 t) (ms_3 t) (hs_3 t) scM (Memref.isWhole_whole _)
    (fun h => h0 ((hcondFirst t).mp h)) (fun h => h1 ((hcondLast t).mp h)) (iblk V c 0 t) (iblk V c 1 t) (iblk V c 2 t) xs

def runC (c : Dev nD) (t : Fin cfg2.N) (h0 : ¬t.val % 1250 = 0) (h1 : t.val % 1250 = 1249) (xs : Vec F S10000x128 .f32) :=
  kernelRun_C c (grid2.coords t) (ms_0 t) (hs_0 t) (ms_1 t) (hs_1 t) (ms_2 t) (hs_2 t) (ms_3 t) (hs_3 t) scM (Memref.isWhole_whole _)
    (fun h => h0 ((hcondFirst t).mp h)) ((hcondLast t).mpr h1) (iblk V c 0 t) (iblk V c 1 t) (iblk V c 2 t) xs

abbrev rdO (L : Pcs (F := F) S1x10000x128) : Vec F S1x10000x128 .f32 := VO_3.read (Elt F) (VO_3.writes (Elt F) VO_3.junk L)
abbrev rdS (L : Pcs (F := F) S10000x128) : Vec F S10000x128 .f32 := VS.read (Elt F) (VS.writes (Elt F) VS.junk L)

-- what a trip's stores leave: in the output block and in the running sum
abbrev rd {P : Pcs (F := F) S1x10000x128 → Pcs (F := F) S10000x128 → Prop}
    (r : Σ' L3, { LS // P L3 LS }) : Vec F S1x10000x128 .f32 × Vec F S10000x128 .f32 := (rdO r.1, rdS r.2.1)

-- after trip n: a first trip starts afresh from its own blocks, any other continues from what trip n - 1 left in the running sum
def outsAt (c : Dev nD) : (n : ℕ) → n < cfg2.N → Vec F S1x10000x128 .f32 × Vec F S10000x128 .f32
  | 0, hn => rd (runA V c ⟨0, hn⟩ (Nat.zero_mod _) (by show ¬0 % 1250 = 1249; omega))
  | n + 1, hn =>
    if h0 : (n + 1) % 1250 = 0 then rd (runA V c ⟨n + 1, hn⟩ h0 (by show ¬(n + 1) % 1250 = 1249; omega))
    else if h1 : (n + 1) % 1250 = 1249 then rd (runC V c ⟨n + 1, hn⟩ h0 h1 (outsAt c n (Nat.lt_of_succ_lt hn)).2)
    else rd (runB V c ⟨n + 1, hn⟩ h0 h1 (outsAt c n (Nat.lt_of_succ_lt hn)).2)

abbrev prev (c : Dev nD) (t : Fin cfg2.N) : Vec F S10000x128 .f32 :=
  (outsAt V c (t.val - 1) (Nat.lt_of_le_of_lt (Nat.sub_le _ _) t.isLt)).2

theorem outsAt_A (c : Dev nD) (t : Fin cfg2.N) (h0 : t.val % 1250 = 0) (h1 : ¬t.val % 1250 = 1249) :
    outsAt V c t.val t.isLt = rd (runA V c t h0 h1) := by
  obtain ⟨n, hn⟩ := t
  cases n with
  | zero => rfl
  | succ n => exact dif_pos h0

theorem outsAt_B (c : Dev nD) (t : Fin cfg2.N) (h0 : ¬t.val % 1250 = 0) (h1 : ¬t.val % 1250 = 1249) :
    outsAt V c t.val t.isLt = rd (runB V c t h0 h1 (prev V c t)) := by
  obtain ⟨n, hn⟩ := t
  cases n with
  | zero => exact absurd (Nat.zero_mod _) h0
  | succ n => exact (dif_neg h0).trans (dif_neg h1)

theorem outsAt_C (c : Dev nD) (t : Fin cfg2.N) (h0 : ¬t.val % 1250 = 0) (h1 : t.val % 1250 = 1249) :
    outsAt V c t.val t.isLt = rd (runC V c t h0 h1 (prev V c t)) := by
  obtain ⟨n, hn⟩ := t
  cases n with
  | zero => exact absurd (Nat.zero_mod _) h0
  | succ n => exact (dif_neg h0).trans (dif_pos h1)

def PhiS (c : Dev nD) : (n : ℕ) → n ≤ cfg2.N → sProp 𝕄
  | 0, _ => Pipeline.ΦA spec2 c
  | n + 1, hn => iprop(iprop(owns (c : Thread nD τ) scM fullShare ((outsAt V c n hn).2) ∗ restBut (F := F) c) ∗ (∃ r, prngReg c r))

theorem PhiS_pos (c : Dev nD) (n : ℕ) (h : n ≤ cfg2.N) (hz : n ≠ 0) :
    PhiS V c n h = iprop(iprop(owns (c : Thread nD τ) scM fullShare ((outsAt V c (n - 1) (by omega)).2) ∗ restBut (F := F) c) ∗ (∃ r, prngReg c r)) := by
  cases n with
  | zero => exact absurd rfl hz
  | succ n => rfl

-- between trips the running sum holds some contents: all a first trip asks for, and all that is kept at the end
theorem PhiS_any (c : Dev nD) (n : ℕ) (h : n ≤ cfg2.N) :
    PhiS V c n h ⊢ iprop(iprop((∃ d, owns (c : Thread nD τ) scM fullShare d) ∗ restBut (F := F) c) ∗ (∃ r, prngReg c r)) := by
  cases n with
  | zero => rw [show PhiS V c 0 h = Pipeline.ΦA spec2 c from rfl, PhiA_eq]
  | succ n =>
    change iprop(iprop(_ ∗ _) ∗ _) ⊢ _
    iintro ⟨⟨HS, HR⟩, Hg⟩
    iframe HR Hg
    iexists _; iexact HS

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_3 (c : Dev nD) (t : Fin cfg2.N) : (dat V c).after 3 t = (outsAt V c t.val t.isLt).1 := by dsimp only [dat]

theorem before_in (c : Dev nD) (t : Fin cfg2.N) :
    (∀ d, (dat V c).before 0 t d = iblk V c 0 t) ∧ (∀ d, (dat V c).before 1 t d = iblk V c 1 t) ∧ (∀ d, (dat V c).before 2 t d = iblk V c 2 t) := by
  refine ⟨fun d => ?_, fun d => ?_, fun d => ?_⟩ <;>
    exact ((dat V c).before_in_eq_fetched _ rfl (fun _ => rfl) (fun _ _ _ => rfl) (fun t => by dsimp only [dat]; unfold Dat.blockOf iblk; try rfl) t d).trans
      (by unfold Dat.fetched Dat.blockOf iblk; dsimp only [dat]; try rfl)

theorem leaves_in (c : Dev nD) (t : Fin cfg2.N) :
    (dat V c).leavesExact 0 t = owns (c : Thread nD τ) (ms_0 t) fullShare (iblk V c 0 t)
      ∧ (dat V c).leavesExact 1 t = owns (c : Thread nD τ) (ms_1 t) fullShare (iblk V c 1 t)
      ∧ (dat V c).leavesExact 2 t = owns (c : Thread nD τ) (ms_2 t) fullShare (iblk V c 2 t) := by
  refine ⟨?_, ?_, ?_⟩ <;> (unfold Dat.leavesExact; simp only [liveAt_0 t, liveAt_1 t, liveAt_2 t]; rfl)

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

-- what covering writes leave does not depend on what was there before
theorem owns_writes (c : Dev nD) {S : Shape} (M : Memref sig .tc .vmem S .f32) (v' : View sig .tc .vmem S .f32) (L : Pcs (F := F) S)
    (hL : View.Piece.tiledL L S.size = true) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩; iexists _; isplitr
  swap; · iexact H
  ipureintro; exact View.read_writes_of_cover _ _ _ _ _ (View.cover_of_tiledL _ _ hL)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [(before_in V c t).1, (before_in V c t).2.1, (before_in V c t).2.2]
  rw [show (dat V c).owesAt () t.succ = (dat V c).owesAt () t.castSucc from rfl,
    show (dat V c).Φ t.succ = iprop(iprop(owns (c : Thread nD τ) scM fullShare ((outsAt V c t.val t.isLt).2) ∗ restBut (F := F) c) ∗ (∃ r, prngReg c r)) from rfl,
    PhiS_castSucc V c t]
  simp only [(leaves_in V c t).1, (leaves_in V c t).2.1, (leaves_in V c t).2.2]
  by_cases h1 : t.val % 1250 = 1249
  · have h0 : ¬t.val % 1250 = 0 := by omega
    rw [show (dat V c).leavesExact 3 t = owns (c : Thread nD τ) (ms_3 t) fullShare ((dat V c).after 3 t) from by
      unfold Dat.leavesExact; rw [live_3 t h1], after_3]
    rw [outsAt_C V c t h0 h1, PhiS_pos V c _ _ (fun hz => h0 (by rw [hz]))]
    dsimp only [rd]
    iintro ⟨⟨⟨HS, HR⟩, Hg⟩, Ho, ⟨%d0, H0⟩, ⟨%d1, H1⟩, ⟨%d2, H2⟩, ⟨%d3, H3⟩⟩
    iapply ((runC V c t h0 h1 (prev V c t)).2.2 Set.univ _)
    iframe H0 H1 H2 HS
    isplitl [H3]; · iexists _; iexact H3
    iintro ⟨H0, H1, H2, H3, HS⟩
    iframe HR Hg Ho H0 H1 H2
    isplitl [HS]
    · iapply owns_writes c scM VS (runC V c t h0 h1 _).2.1 (by sl_kernel_rfl); iexact HS
    iapply owns_writes c (ms_3 t) VO_3 (runC V c t h0 h1 _).1 (by sl_kernel_rfl); iexact H3
  · rw [Dat.leavesExact_idle (dat V c) 3 t (idle_3 t h1) (noFlush_3 t h1)]
    by_cases h0 : t.val % 1250 = 0
    · rw [outsAt_A V c t h0 h1]
      dsimp only [rd]
      refine (sep_mono (PhiS_any V c _ _) .rfl).trans ?_
      iintro ⟨⟨⟨HS, HR⟩, Hg⟩, Ho, ⟨%d0, H0⟩, ⟨%d1, H1⟩, ⟨%d2, H2⟩, ⟨%d3, H3⟩⟩
      iapply ((runA V c t h0 h1).2.2 _ Set.univ _)
      iframe H0 H1 H2 H3 HS
      iintro ⟨H0, H1, H2, H3, HS⟩
      iframe HR Hg Ho H0 H1 H2
      isplitl [HS]
      · iapply owns_writes c scM VS (runA V c t h0 h1).2.1 (by sl_kernel_rfl); iexact HS
      iexists _; iexact H3
    · rw [outsAt_B V c t h0 h1, PhiS_pos V c _ _ (fun hz => h0 (by rw [hz]))]
      dsimp only [rd]
      iintro ⟨⟨⟨HS, HR⟩, Hg⟩, Ho, ⟨%d0, H0⟩, ⟨%d1, H1⟩, ⟨%d2, H2⟩, ⟨%d3, H3⟩⟩
      iapply ((runB V c t h0 h1 (prev V c t)).2.2 _ Set.univ _)
      iframe H0 H1 H2 H3 HS
      iintro ⟨H0, H1, H2, H3, HS⟩
      iframe HR Hg Ho H0 H1 H2
      isplitl [HS]
      · iapply owns_writes c scM VS (runB V c t h0 h1 _).2.1 (by sl_kernel_rfl); iexact HS
      iexists _; iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = Pipeline.ΦA spec2 c from rfl]

theorem hout (c : Dev nD) : (dat V c).Φ (Fin.last cfg2.N) ⊢ Pipeline.ΦA spec2 c := by
  rw [PhiA_eq]
  exact PhiS_any V c (Fin.last cfg2.N).val (Nat.le_of_lt_succ (Fin.last cfg2.N).isLt)

end Cert.KernelIdeal.Fr2

end
-- ==== Proof.Comb1.lean ====
import proofs.«409789_j50697793962364_3_alg».proof.Proof.Gen.KernelIdeal.Launch
import proofs.«409789_j50697793962364_3_alg».proof.Proof.Gen.KernelIdeal.Skeleton
import proofs.«409789_j50697793962364_3_alg».proof.Proof.Gen.KernelIdeal.Points
import Idealize.ShloMosaic.Lib.Pipeline.FrameBody
import Idealize.ShloMosaic.Lib.Tactic

noncomputable section

namespace Cert.KernelIdeal.Comb

open Cert.KernelIdeal.Gen Idealize.ShloMosaic Idealize.ShloMosaic.TcCoe Idealize.ShloMosaic.Tactic
open Idealize.SL Idealize.SL.RA Idealize.SL.BI Idealize.SL.BI.BIBase Idealize.SL.ProofMode Idealize.SL.Sem

variable {F : FTy → Type} [FloatOps F]

local notation "𝕄" => MT nD τ sig Unit (Elt F) ℕ (UR sig nD τ) ℕ

abbrev rF : Rect S1000x128 := Rect.unit (s := S1000x128) ![0, 0] S1000x128.size inb_S1000x128_S1000x128_0_0
abbrev rA0 : Rect S2x1000x128 := Rect.unit (s := S2x1000x128) ![0, 0, 0] S1x1000x128.size inb_S2x1000x128_S1x1000x128_0_0_0
abbrev rA1 : Rect S2x1000x128 := Rect.unit (s := S2x1000x128) ![1, 0, 0] S1x1000x128.size inb_S2x1000x128_S1x1000x128_1_0_0
abbrev rW : Rect S128x128 := Rect.unit (s := S128x128) ![0, 0] S128x128.size inb_S128x128_S128x128_0_0
abbrev rB : Rect S128 := Rect.unit (s := S128) ![0] S128.size inb_S128_S128_0

abbrev Pay (F : FTy → Type) [FloatOps F] :=
  Vec F S1x1000x128 .f32 → Vec F S1x1000x128 .f32 → Vec F S1000x128 .f32 → Vec F S128x128 .f32 → Vec F S128 .f32 → FVec F S1000x128 .f32

def skel (pay : Pay F) (a1 : Memref sig .tc .vmem S1000x128 .f32) (a2 : Memref sig .tc .vmem S2x1000x128 .f32) (a3 : Memref sig .tc .vmem S128x128 .f32)
    (a4 : Memref sig .tc .vmem S128 .f32) (a5 : Memref sig .tc .vmem S1000x128 .f32) : Prog (TpuEff nD τ sig (Elt F) Λ₀ .tc) PUnit := do
  let v0 : Vec F S1x1000x128 .f32 ← Prog.lift (.load a2 rA0.toLoadRect (View.loadsAt_vmem h_S1x1000x128))
  let v2 : Vec F S1x1000x128 .f32 ← Prog.lift (.load a2 rA1.toLoadRect (View.loadsAt_vmem h_S1x1000x128))
  let v5 : Vec F S1000x128 .f32 ← Prog.lift (.load a1 rF.toLoadRect (View.loadsAt_vmem h_S1000x128))
  let v8 : Vec F S128x128 .f32 ← Prog.lift (.load a3 rW.toLoadRect (View.loadsAt_vmem h_S128x128))
  let v11 : Vec F S128 .f32 ← Prog.lift (.load a4 rB.toLoadRect (View.loadsAt_vmem h_S128))
  let _ : Vec F S1000x128 .f32 ← Prog.lift (.load a5 rF.toLoadRect (View.loadsAt_vmem h_S1000x128))
  Prog.lift (.store a5 rF (pay v0 v2 v5 v8 v11) Finset.univ (View.stores_vmem_bits_univ h_S1000x128 rfl) (.inl rfl))
  pure ⟨⟩

def outOf (pay : Pay F) (x0 : Vec F S1000x128 .f32) (x1 : Vec F S2x1000x128 .f32) (x2 : Vec F S128x128 .f32) (x3 : Vec F S128 .f32) : Vec F S1000x128 .f32 :=
  View.canon [⟨rF, pay (View.ld x1 rA0) (View.ld x1 rA1) (View.ld x0 rF) (View.ld x2 rW) (View.ld x3 rB)⟩]

-- the one stored piece covers the tile, so the tile reads as that piece's canonical contents
theorem sound_skel (pay : Pay F) (c : Dev nD) (E : Set ℕ) (a1 : Memref sig .tc .vmem S1000x128 .f32) (a2 : Memref sig .tc .vmem S2x1000x128 .f32)
    (a3 : Memref sig .tc .vmem S128x128 .f32) (a4 : Memref sig .tc .vmem S128 .f32) (a5 : Memref sig .tc .vmem S1000x128 .f32)
    {D0 D1 D2 D3 D4 : Type} {g0 : D0 → Vec F S1000x128 .f32} {g1 : D1 → Vec F S2x1000x128 .f32} {g2 : D2 → Vec F S128x128 .f32}
    {g3 : D3 → Vec F S128 .f32} {g4 : D4 → Vec F S1000x128 .f32} {x0 x1 x2 x3}
    (e0 : ∀ d, g0 d = x0) (e1 : ∀ d, g1 d = x1) (e2 : ∀ d, g2 d = x2) (e3 : ∀ d, g3 d = x3) (R R' : sProp 𝕄) :
    iprop(R ∗ R' ∗ (∃ d, owns (c : Thread nD τ) a1 fullShare (g0 d)) ∗ (∃ d, owns (c : Thread nD τ) a2 fullShare (g1 d))
        ∗ (∃ d, owns (c : Thread nD τ) a3 fullShare (g2 d)) ∗ (∃ d, owns (c : Thread nD τ) a4 fullShare (g3 d))
        ∗ (∃ d, owns (c : Thread nD τ) a5 fullShare (g4 d)))
      ⊢ wp frame (wpE (defs₀ (F := F)) Variants.none c none) E (skel pay a1 a2 a3 a4 a5) fun _ =>
        iprop(R ∗ R' ∗ owns (c : Thread nD τ) a1 fullShare x0 ∗ owns (c : Thread nD τ) a2 fullShare x1 ∗ owns (c : Thread nD τ) a3 fullShare x2
          ∗ owns (c : Thread nD τ) a4 fullShare x3 ∗ owns (c : Thread nD τ) a5 fullShare (outOf pay x0 x1 x2 x3)) := by
  unfold skel
  conv_lhs => simp only [owns, e0, e1, e2, e3]
  iintro ⟨HR, HR', ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe HR HR'
  isplitl [H0]; · iapply owns_intro $$ H0
  isplitl [H1]; · iapply owns_intro $$ H1
  isplitl [H2]; · iapply owns_intro $$ H2
  isplitl [H3]; · iapply owns_intro $$ H3
  unfold owns
  iexists _; iframe H4
  ipureintro
  exact View.read_writes_eq_canon _ _ _ (View.cover_of_tiled _ S1000x128.size (by rfl))

end Cert.KernelIdeal.Comb

namespace Cert.KernelIdeal.Fr1

open Cert.KernelIdeal.Gen Cert.KernelIdeal.Comb Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem cc1_eq (i : grid1.Coords) (a1 h1 a2 h2 a3 h3 a4 h4 a5 h5) :
    cc1__combine_kernel (F := F) i a1 h1 a2 h2 a3 h3 a4 h4 a5 h5 = skel k1_pay1 a1 a2 a3 a4 a5 := by
  rw [cc1__combine_kernel_eq_skeleton]; rfl

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf k1_pay1 (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := rfl

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W1, bigSep_W1]
  show _ ⊢ wp _ _ _ (bodyAt1 t) _
  unfold bodyAt1
  rw [cc1_eq]
  dsimp only [dat]
  exact sound_skel k1_pay1 c _ _ _ _ _ _ (before_0 V c t) (before_1 V c t) (before_2 V c t) (before_3 V c t) _ _

end Cert.KernelIdeal.Fr1

end
-- ==== Proof.Comb3.lean ====
import proofs.«409789_j50697793962364_3_alg».proof.Proof.Comb1

noncomputable section

namespace Cert.KernelIdeal.Fr3

open Cert.KernelIdeal.Gen Cert.KernelIdeal.Comb Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

theorem cc3_eq (i : grid3.Coords) (a1 h1 a2 h2 a3 h3 a4 h4 a5 h5) :
    cc3__combine_kernel (F := F) i a1 h1 a2 h2 a3 h3 a4 h4 a5 h5 = skel k3_pay1 a1 a2 a3 a4 a5 := by
  rw [cc3__combine_kernel_eq_skeleton]; rfl

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => outOf k3_pay1 (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := rfl

theorem before_0 (c : Dev nD) (t : Fin cfg3.N) (d) : (dat V c).before 0 t d = iblk V c 0 t :=
  (dat V c).before_in_eq_fetched 0 rfl (fun _ => rfl) (fun _ _ _ => rfl) (fun _ => rfl) t d
theorem before_1 (c : Dev nD) (t : Fin cfg3.N) (d) : (dat V c).before 1 t d = iblk V c 1 t :=
  (dat V c).before_in_eq_fetched 1 rfl (fun _ => rfl) (fun _ _ _ => rfl) (fun _ => rfl) t d
theorem before_2 (c : Dev nD) (t : Fin cfg3.N) (d) : (dat V c).before 2 t d = iblk V c 2 t :=
  (dat V c).before_in_eq_fetched 2 rfl (fun _ => rfl) (fun _ _ _ => rfl) (fun _ => rfl) t d
theorem before_3 (c : Dev nD) (t : Fin cfg3.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W3, bigSep_W3]
  show _ ⊢ wp _ _ _ (bodyAt3 t) _
  unfold bodyAt3
  rw [cc3_eq]
  dsimp only [dat]
  exact sound_skel k3_pay1 c _ _ _ _ _ _ (before_0 V c t) (before_1 V c t) (before_2 V c t) (before_3 V c t) _ _

end Cert.KernelIdeal.Fr3

end
-- ==== Proof.Regs.lean ====
import proofs.«409789_j50697793962364_3_alg».proof.Proof.RunCond
import proofs.«409789_j50697793962364_3_alg».proof.Proof.AggDat0
import proofs.«409789_j50697793962364_3_alg».proof.Proof.AggDat2
import proofs.«409789_j50697793962364_3_alg».proof.Proof.Comb1
import proofs.«409789_j50697793962364_3_alg».proof.Proof.Comb3

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Seg BodyObligation)

variable {F : FTy → Type} [FloatOps F]

local notation "𝕄" => MT nD τ sig Unit (Elt F) ℕ (UR sig nD τ) ℕ

variable (m : (ℓ : Loc nD τ sig) → Buf (Elt F) ℓ)

abbrev E5 : (c : Dev nD) → (b : Ref sig .tc) → Buf (Elt F) ((c : Thread nD τ).loc b) := fun c b => V5 m c b
abbrev outs6 : Outs (F := F) := fun _ r c =>
  Pipeline.withArrays spec0 c (V5 m c) (fun w => (Fr0.dat (E5 m) c).arrAt w cfg0.N) r
abbrev E6 : (c : Dev nD) → (b : Ref sig .tc) → Buf (Elt F) ((c : Thread nD τ).loc b) := fun c b => V6 m (outs6 m) c b
abbrev outs7 : Outs (F := F) := fun J r c => match J with
  | 6 => outs6 m 6 r c
  | _ => Pipeline.withArrays spec1 c (V6 m (outs6 m) c) (fun w => (Fr1.dat (E6 m) c).arrAt w cfg1.N) r
abbrev E8 : (c : Dev nD) → (b : Ref sig .tc) → Buf (Elt F) ((c : Thread nD τ).loc b) := fun c b => V8 m (outs7 m) c b
abbrev outs9 : Outs (F := F) := fun J r c => match J with
  | 6 => outs7 m 6 r c
  | 7 => outs7 m 7 r c
  | _ => Pipeline.withArrays spec2 c (V8 m (outs7 m) c) (fun w => (Fr2.dat (E8 m) c).arrAt w cfg2.N) r
abbrev E9 : (c : Dev nD) → (b : Ref sig .tc) → Buf (Elt F) ((c : Thread nD τ).loc b) := fun c b => V9 m (outs9 m) c b
abbrev outs : Outs (F := F) := fun J r c => match J with
  | 6 => outs9 m 6 r c
  | 7 => outs9 m 7 r c
  | 9 => outs9 m 9 r c
  | _ => Pipeline.withArrays spec3 c (V9 m (outs9 m) c) (fun w => (Fr3.dat (E9 m) c).arrAt w cfg3.N) r

def pdats : (p : Fin 4) → (c : Dev nD) → Dat τ (Elt F) Unit ℕ (UR sig nD τ) ℕ (cfgs p) c
  | ⟨0, _⟩ => fun c => Fr0.dat (E5 m) c
  | ⟨1, _⟩ => fun c => Fr1.dat (E6 m) c
  | ⟨2, _⟩ => fun c => Fr2.dat (E8 m) c
  | ⟨3, _⟩ => fun c => Fr3.dat (E9 m) c

def reg0 := reg launch0 3 (by decide) (pd := pdats m) (V5 m) (V6 m (outs m)) (Fr0.body_obligation (E5 m)) (Fr0.A_eq (E5 m)) (Fr0.hin (E5 m)) (Fr0.hout (E5 m))
def reg1 := reg launch1 4 (by decide) (pd := pdats m) (V6 m (outs m)) (V7 m (outs m)) (Fr1.body_obligation (E6 m)) (Fr1.A_eq (E6 m)) (fun _ => .rfl) (fun _ => .rfl)
def reg2 := reg launch2 3 (by decide) (pd := pdats m) (V8 m (outs m)) (V9 m (outs m)) (Fr2.body_obligation (E8 m)) (Fr2.A_eq (E8 m)) (Fr2.hin (E8 m)) (Fr2.hout (E8 m))
def reg3 := reg launch3 4 (by decide) (pd := pdats m) (V9 m (outs m)) (V10 m (outs m)) (Fr3.body_obligation (E9 m)) (Fr3.A_eq (E9 m)) (fun _ => .rfl) (fun _ => .rfl)

abbrev u₀ := initOf (Pipeline.cells cfgs cellOf_inj) (Pipeline.launchToks cfgs cellOf_inj)

set_option backward.isDefEq.respectTransparency.types false in
theorem run_main (ρ : Dev nD → PrngReg) :
    θ_run defs (onTc (τ := τ) (main (F := F))) ⟨m, fun _ => 0, ρ⟩ (fun r => ∀ c : Dev nD, Ends m (outs m) c r.2) := by
  refine Pipeline.θ_run_regions_kit_dev (pcfgs (F := F)) adm (pdats m) () cellOf_inj emb₁ defs₀ Variants.none L lv m ρ main
    (segs m (outs m) Variants.none L lv (fun _ => R) () (pdats m) (reg0 m) (reg1 m) (reg2 m) (reg3 m))
    (fun c Q => by rw [main_chain c, Seg.run_eq_chain]; exact .rfl)
    (fun c => by simp only [segs, Seg.pipes_host, Seg.pipes_region, Seg.pipes_nil]; decide) 0 (fun _ _ => rfl) (fun _ => (BI.emp : sProp 𝕄)) u₀
    (by rw [BI.bigSep_emp_const]; iintro Hu; imodintro; isplitl [Hu]
        · iapply (show (ownU u₀ : sProp 𝕄) ⊢ BI.own (emb₁ u₀) from .rfl); iexact Hu
        iempintro)
    (T₀ := fun c => iprop(StableHlo.held (c : Thread nD τ) (Pipeline.ucRefs τ sig) (V0 m c) ∗ R c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl, sep_mono .rfl sep_elim_right⟩)
    (hinit := Pipeline.initEach L lv fun c => ?_) (QY := Ends m (outs m)) (hfin := fun c s' => ?_) (hQ := fun _ h => h)
  · rw [← Pipeline.unscopedBufs_held]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      have g := fun (b : Ref sig .tc) hb => h (Proc.devRef .tc b) (Finset.mem_filter.mpr ⟨StableHlo.devRef_mem_tcRefs b, hb⟩)
      exact ⟨(g main_v13 (by decide)).trans (V10_main_v13 m _ c), (g main_arg0 (by decide)).trans (V10_main_arg0 m _ c),
        (g main_arg1 (by decide)).trans (V10_main_arg1 m _ c), (g main_arg2 (by decide)).trans (V10_main_arg2 m _ c),
        (g main_arg3 (by decide)).trans (V10_main_arg3 m _ c), (g main_arg4 (by decide)).trans (V10_main_arg4 m _ c),
        (g main_arg5 (by decide)).trans (V10_main_arg5 m _ c)⟩
    · iexact HSI

theorem frame (ρ : Dev nD → PrngReg) :
    θ_run defs (onTc (τ := τ) (main (F := F))) ⟨m, fun _ => 0, ρ⟩ (fun r => ∀ c : Dev nD, Kept m c r.2) :=
  (θ_run defs _ _).mono (fun _ h c => (h c).2) (run_main m ρ)

end Cert.KernelIdeal.Fr

end
-- ==== Proof.RefRun.lean ====
import proofs.«409789_j50697793962364_3_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

abbrev layerOps (s e : TRef sig ⟨S640000, .i32⟩) (h : TRef sig ⟨S10000x128, .f32⟩) (w : TRef sig ⟨S128x128, .f32⟩) (b : TRef sig ⟨S128, .f32⟩) (c0 c1 : TRef sig ⟨S_, .i32⟩)
    (v4 v6 v7 v8 : TRef sig ⟨S640000, .i32⟩) (v5 : TRef sig ⟨S640000, .i1⟩) (v9 v12 : TRef sig ⟨S640000x1, .i32⟩) (v10 : TRef sig ⟨S640000x128, .f32⟩)
    (k0 k1 : TRef sig ⟨S_, .f32⟩) (v11 v13 v14 v15 v16 v17 v19 v20 : TRef sig ⟨S10000x128, .f32⟩) (v18 : TRef sig ⟨S1x128, .f32⟩) :
    List (HloOp τ sig (Elt F)) :=
  [ TRef.nullary c0 (constantI S_ 32 0#32),
    TRef.unary c0 v4 (broadcastInDim S640000 ![] bcast_S_S640000),
    TRef.binary s v4 v5 (cmpi .slt),
    TRef.nullary c1 (constantI S_ 32 10000#32),
    TRef.unary c1 v6 (broadcastInDim S640000 ![] bcast_S_S640000),
    TRef.binary s v6 v7 addi,
    TRef.ternary v5 v7 s v8 select,
    TRef.unary v8 v9 (broadcastInDim S640000x1 ![0] bcast_S640000_S640000x1_0),
    TRef.binary h v9 v10 (Host.gather gather_S10000x128_S640000x1_S640000x128_1_0_n_n_0_1_1128),
    TRef.nullary k0 (constant S_ .f32 0x00000000#32),
    TRef.unary k0 v11 (broadcastInDim S10000x128 ![] bcast_S_S10000x128),
    TRef.unary e v12 (broadcastInDim S640000x1 ![0] bcast_S640000_S640000x1_0),
    TRef.ternary v11 v12 v10 v13 (Host.scatterAdd scatter_S10000x128_S640000x1_S640000x128_1_0_0_1),
    TRef.nullary k1 (constant S_ .f32 0x3F800000#32),
    TRef.unary k1 v14 (broadcastInDim S10000x128 ![] bcast_S_S10000x128),
    TRef.binary v14 h v15 mulf,
    TRef.binary v15 v13 v16 addf,
    TRef.binary v16 w v17 (Host.dotGeneral dot_S10000x128_S128x128_S10000x128_1_0_0_1_n_n none),
    TRef.unary b v18 (broadcastInDim S1x128 ![1] bcast_S128_S1x128_1),
    TRef.unary v18 v19 (broadcastInDim S10000x128 ![0, 1] bcast_S1x128_S10000x128_0_1),
    TRef.binary v17 v19 v20 addf ]

abbrev ops1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]
    ++ layerOps (.of main_v1) (.of main_v3) (.of main_arg0) (.of main_arg2) (.of main_arg3) (.of main_c) (.of main_c_0) (.of main_v4) (.of main_v6) (.of main_v7) (.of main_v8)
      (.of main_v5) (.of main_v9) (.of main_v12) (.of main_v10) (.of main_cst) (.of main_cst_1) (.of main_v11) (.of main_v13) (.of main_v14)
      (.of main_v15) (.of main_v16) (.of main_v17) (.of main_v19) (.of main_v20) (.of main_v18)
    ++ [ TRef.nullary (TRef.of (T := ⟨S_, .f32⟩) main_call0_cst) (constant S_ .f32 0x00000000#32),
      TRef.unary (TRef.of (T := ⟨S_, .f32⟩) main_call0_cst) (TRef.of (T := ⟨S10000x128, .f32⟩) main_call0_v0) (broadcastInDim S10000x128 ![] bcast_S_S10000x128),
      TRef.binary (TRef.of (T := ⟨S10000x128, .f32⟩) main_v20) (TRef.of (T := ⟨S10000x128, .f32⟩) main_call0_v0) (TRef.of (T := ⟨S10000x128, .f32⟩) main_v21) maximumf ]

abbrev ops2 : List (HloOp τ sig (Elt F)) :=
  layerOps (.of main_v1) (.of main_v3) (.of main_v21) (.of main_arg4) (.of main_arg5) (.of main_c_2) (.of main_c_3) (.of main_v22) (.of main_v24) (.of main_v25) (.of main_v26)
    (.of main_v23) (.of main_v27) (.of main_v30) (.of main_v28) (.of main_cst_4) (.of main_cst_5) (.of main_v29) (.of main_v31) (.of main_v32)
    (.of main_v33) (.of main_v34) (.of main_v35) (.of main_v37) (.of main_v38) (.of main_v36)

abbrev ops3a : List (HloOp τ sig (Elt F)) :=
  [ TRef.nullary (TRef.of (T := ⟨S_, .f32⟩) main_call1_cst) (constant S_ .f32 0xFF800000#32),
    TRef.binary (TRef.of (T := ⟨S10000x128, .f32⟩) main_v38) (TRef.of (T := ⟨S_, .f32⟩) main_call1_cst) (TRef.of (T := ⟨S10000, .f32⟩) main_call1_v0) (fun x v => Host.reduce FloatOps.maximumf x v reducesTo_S10000x128_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf ]

abbrev ops3b : List (HloOp τ sig (Elt F)) :=
  [ TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x128, .f32⟩) main_call1_v4) (broadcastInDim S10000x128 ![0, 1] bcast_S10000x1_S10000x128_0_1),
    TRef.binary (TRef.of (T := ⟨S10000x128, .f32⟩) main_v38) (TRef.of (T := ⟨S10000x128, .f32⟩) main_call1_v4) (TRef.of (T := ⟨S10000x128, .f32⟩) main_call1_v5) subf ]

abbrev ops3c : List (HloOp τ sig (Elt F)) :=
  [ TRef.unary (TRef.of (T := ⟨S10000x128, .f32⟩) main_call1_v5) (TRef.of (T := ⟨S10000x128, .f32⟩) main_call1_v6) Host.exp,
    TRef.nullary (TRef.of (T := ⟨S_, .f32⟩) main_call1_cst_1) (constant S_ .f32 0x00000000#32),
    TRef.binary (TRef.of (T := ⟨S10000x128, .f32⟩) main_call1_v6) (TRef.of (T := ⟨S_, .f32⟩) main_call1_cst_1) (TRef.of (T := ⟨S10000, .f32⟩) main_call1_v7) (fun x v => Host.reduceAdd x v reducesTo_S10000x128_S10000_d1 h_S_) ]

abbrev ops3d : List (HloOp τ sig (Elt F)) :=
  [ TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x128, .f32⟩) main_call1_v10) (broadcastInDim S10000x128 ![0, 1] bcast_S10000x1_S10000x128_0_1),
    TRef.binary (TRef.of (T := ⟨S10000x128, .f32⟩) main_call1_v5) (TRef.of (T := ⟨S10000x128, .f32⟩) main_call1_v10) (TRef.of (T := ⟨S10000x128, .f32⟩) main_v39) subf ]

abbrev ops : List (HloOp τ sig (Elt F)) := ops1 ++ (ops2 ++ (ops3a ++ (ops3b ++ (ops3c ++ ops3d))))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.forall_append, List.Forall, nullary_bufs_sub, unary_bufs_sub, binary_bufs_sub, ternary_bufs_sub, reshape_bufs_sub, and_self]

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

def layer (h : (⟨S10000x128, .f32⟩ : BufTy).Contents (Elt F)) (s e : (⟨S640000, .i32⟩ : BufTy).Contents (Elt F)) (w : (⟨S128x128, .f32⟩ : BufTy).Contents (Elt F)) (b : (⟨S128, .f32⟩ : BufTy).Contents (Elt F)) :
    (⟨S10000x128, .f32⟩ : BufTy).Contents (Elt F) :=
  addf (Host.dotGeneral dot_S10000x128_S128x128_S10000x128_1_0_0_1_n_n none
      (addf (mulf (broadcastInDim S10000x128 ![] bcast_S_S10000x128 (constant S_ .f32 0x3F800000#32)) h)
        (Host.scatterAdd scatter_S10000x128_S640000x1_S640000x128_1_0_0_1
          (broadcastInDim S10000x128 ![] bcast_S_S10000x128 (constant S_ .f32 0x00000000#32))
          (broadcastInDim S640000x1 ![0] bcast_S640000_S640000x1_0 e)
          (Host.gather gather_S10000x128_S640000x1_S640000x128_1_0_n_n_0_1_1128 h
            (broadcastInDim S640000x1 ![0] bcast_S640000_S640000x1_0
              (select (cmpi .slt s (broadcastInDim S640000 ![] bcast_S_S640000 (constantI S_ 32 0#32)))
                (addi s (broadcastInDim S640000 ![] bcast_S_S640000 (constantI S_ 32 10000#32))) s)))))
      w)
    (broadcastInDim S10000x128 ![0, 1] bcast_S1x128_S10000x128_0_1 (broadcastInDim S1x128 ![1] bcast_S128_S1x128_1 b))

def rowMax (y : (⟨S10000x128, .f32⟩ : BufTy).Contents (Elt F)) : (⟨S10000, .f32⟩ : BufTy).Contents (Elt F) :=
  maximumf (broadcastInDim S10000 ![] bcast_S_S10000 (constant S_ .f32 0xFF800000#32))
    (Host.reduce FloatOps.maximumf y (constant S_ .f32 0xFF800000#32) reducesTo_S10000x128_S10000_d1 h_S_)

def minusCol (y : (⟨S10000x128, .f32⟩ : BufTy).Contents (Elt F)) (u : (⟨S10000, .f32⟩ : BufTy).Contents (Elt F)) : (⟨S10000x128, .f32⟩ : BufTy).Contents (Elt F) :=
  subf y (broadcastInDim S10000x128 ![0, 1] bcast_S10000x1_S10000x128_0_1 (broadcastInDim S10000x1 ![0] bcast_S10000_S10000x1_0 u))

def rowSumExp (z : (⟨S10000x128, .f32⟩ : BufTy).Contents (Elt F)) : (⟨S10000, .f32⟩ : BufTy).Contents (Elt F) :=
  Host.reduceAdd (Host.exp z) (constant S_ .f32 0x00000000#32) reducesTo_S10000x128_S10000_d1 h_S_

def minusLogCol (z : (⟨S10000x128, .f32⟩ : BufTy).Contents (Elt F)) (u : (⟨S10000, .f32⟩ : BufTy).Contents (Elt F)) : (⟨S10000x128, .f32⟩ : BufTy).Contents (Elt F) :=
  subf z (broadcastInDim S10000x128 ![0, 1] bcast_S10000x1_S10000x128_0_1 (Host.log (broadcastInDim S10000x1 ![0] bcast_S10000_S10000x1_0 u)))

def logSoftmax (y : (⟨S10000x128, .f32⟩ : BufTy).Contents (Elt F)) : (⟨S10000x128, .f32⟩ : BufTy).Contents (Elt F) :=
  minusLogCol (minusCol y (rowMax y)) (rowSumExp (minusCol y (rowMax y)))

theorem g2 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v38 (F := F) x0 x1 x2 x3 x4 x5 = layer (val_main_v21 (F := F) x0 x1 x2 x3) (val_main_v1 (F := F) x1) (val_main_v3 (F := F) x1) x4 x5 := rfl

theorem g3 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v39 (F := F) x0 x1 x2 x3 x4 x5 = logSoftmax (val_main_v38 (F := F) x0 x1 x2 x3 x4 x5) := rfl

theorem cast_cast_self {α β : Type} (h : α = β) (h' : β = α) (v : α) : cast h' (cast h v) = v := by
  subst h; rfl

theorem s1_v21 (V : Valuation τ sig (Elt F)) :
    after ops1 V (Proc.devRef .tc main_v21) = val_main_v21 (F := F) (V (Proc.devRef .tc main_arg0)) (V (Proc.devRef .tc main_arg1)) (V (Proc.devRef .tc main_arg2)) (V (Proc.devRef .tc main_arg3)) := by
  simp only [after_app]; after_results_simp <;> rfl
theorem s1_v1 (V : Valuation τ sig (Elt F)) :
    after ops1 V (Proc.devRef .tc main_v1) = val_main_v1 (F := F) (V (Proc.devRef .tc main_arg1)) := by
  simp only [after_app]; after_results_simp <;> rfl
theorem s1_v3 (V : Valuation τ sig (Elt F)) :
    after ops1 V (Proc.devRef .tc main_v3) = val_main_v3 (F := F) (V (Proc.devRef .tc main_arg1)) := by
  simp only [after_app]; after_results_simp <;> rfl
theorem s1_arg4 (V : Valuation τ sig (Elt F)) :
    after ops1 V (Proc.devRef .tc main_arg4) = V (Proc.devRef .tc main_arg4) := by
  simp only [after_app]; after_results_simp
theorem s1_arg5 (V : Valuation τ sig (Elt F)) :
    after ops1 V (Proc.devRef .tc main_arg5) = V (Proc.devRef .tc main_arg5) := by
  simp only [after_app]; after_results_simp

theorem s2_v38 (X : Valuation τ sig (Elt F)) :
    after ops2 X (Proc.devRef .tc main_v38) = layer (X (Proc.devRef .tc main_v21)) (X (Proc.devRef .tc main_v1)) (X (Proc.devRef .tc main_v3)) (X (Proc.devRef .tc main_arg4)) (X (Proc.devRef .tc main_arg5)) := by
  after_results_simp <;> rfl

theorem s3a_v2 (X : Valuation τ sig (Elt F)) :
    after ops3a X (Proc.devRef .tc main_call1_v2) = rowMax (X (Proc.devRef .tc main_v38)) := by
  after_results_simp
  simp only [cast_cast_self]
  rfl
theorem s3a_v38 (X : Valuation τ sig (Elt F)) :
    after ops3a X (Proc.devRef .tc main_v38) = X (Proc.devRef .tc main_v38) := by
  after_results_simp
theorem s3b_v5 (X : Valuation τ sig (Elt F)) :
    after ops3b X (Proc.devRef .tc main_call1_v5) = minusCol (X (Proc.devRef .tc main_v38)) (X (Proc.devRef .tc main_call1_v2)) := by
  after_results_simp <;> rfl
theorem s3c_v7 (X : Valuation τ sig (Elt F)) :
    after ops3c X (Proc.devRef .tc main_call1_v7) = rowSumExp (X (Proc.devRef .tc main_call1_v5)) := by
  after_results_simp <;> rfl
theorem s3c_v5 (X : Valuation τ sig (Elt F)) :
    after ops3c X (Proc.devRef .tc main_call1_v5) = X (Proc.devRef .tc main_call1_v5) := by
  after_results_simp
theorem s3d_v39 (X : Valuation τ sig (Elt F)) :
    after ops3d X (Proc.devRef .tc main_v39) = minusLogCol (X (Proc.devRef .tc main_call1_v5)) (X (Proc.devRef .tc main_call1_v7)) := by
  after_results_simp <;> rfl

theorem result (V : Valuation τ sig (Elt F)) :
    after ops V (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_app, after_app, after_app, after_app, after_app, s3d_v39, s3c_v7, s3c_v5, s3b_v5, s3a_v2, s3a_v38, s2_v38,
    s1_v21, s1_v1, s1_v3, s1_arg4, s1_arg5, g3, g2]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Cert.ReferenceIdeal.ReadP.val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v39).trans (result (launchContents m c)),
      (h c main_arg0).trans (by simp only [after_app]; after_results_simp <;> rfl),
      (h c main_arg1).trans (by simp only [after_app]; after_results_simp <;> rfl),
      (h c main_arg2).trans (by simp only [after_app]; after_results_simp <;> rfl),
      (h c main_arg3).trans (by simp only [after_app]; after_results_simp <;> rfl),
      (h c main_arg4).trans (by simp only [after_app]; after_results_simp <;> rfl),
      (h c main_arg5).trans (by simp only [after_app]; after_results_simp <;> rfl)⟩)
    (run_seq scopedRefs_eq scopedSems_eq defs main (fun _ => ops) main_eq (fun _ => ops_sub) m ρ)

end Cert.ReferenceIdeal.RefRun

end
-- ==== Proof.Spec.lean ====
import Idealize.ShloMosaic.PureOps.Ideal
import Idealize.ShloMosaic.Lib.ValueIdx

noncomputable section

namespace Cert.Spec

open Idealize.ShloMosaic

abbrev Mat (n m : ℕ) : Type := Fin n → Fin m → EReal

def oh (a b : BitVec 32) : EReal := if a = b then 1 else 0

def agg (h : Mat 10000 128) (src dst : Fin 640000 → BitVec 32) : Mat 10000 128 := fun k j =>
  ∑ e : Fin 640000, oh (BitVec.ofNat 32 k.val) (dst e) * ∑ r : Fin 10000, oh (BitVec.ofNat 32 r.val) (src e) * h r j

def lin (h : Mat 10000 128) (w : Mat 128 128) (b : Fin 128 → EReal) : Mat 10000 128 := fun k j =>
  (∑ q : Fin 128, h k q * w q j) + b j

def relu (y : Mat 10000 128) : Mat 10000 128 := fun k j => max (y k j) 0

def rowMax (y : Mat 10000 128) (k : Fin 10000) : EReal := Finset.univ.sup fun q : Fin 128 => y k q

def lsm (y : Mat 10000 128) : Mat 10000 128 := fun k j =>
  (y k j - rowMax y k) - Ideal.log (∑ q : Fin 128, Ideal.exp (y k q - rowMax y k))

def conv (h : Mat 10000 128) (src dst : Fin 640000 → BitVec 32) (w : Mat 128 128) (b : Fin 128 → EReal) : Mat 10000 128 :=
  lin (fun k j => h k j + agg h src dst k j) w b

def gin (x : Mat 10000 128) (src dst : Fin 640000 → BitVec 32) (w1 : Mat 128 128) (b1 : Fin 128 → EReal)
    (w2 : Mat 128 128) (b2 : Fin 128 → EReal) : Mat 10000 128 :=
  lsm (conv (relu (conv x src dst w1 b1)) src dst w2 b2)

end Cert.Spec

end
-- ==== Proof.LibGatherRows2.lean ====
import Idealize.ShloMosaic.PureOps
import Idealize.ShloMosaic.Lib.ValueIdx

noncomputable section

namespace Cert.LibGatherRows2

open Idealize.ShloMosaic Idealize.ShloMosaic.ValueIdx

variable {α : Type}

/-- The dimension record of gathering whole rows of an `N × D` table by `E` row numbers. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather reads, at `(p, r)`, entry `r` of the row whose number is the index word clamped into range. -/
theorem gather_rows2_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (p : Fin E) (r : Fin D) :
    Host.gather (rowsDims N D E wf) x idx (ix2 p r)
      = x (ix2 (⟨min (idx (ix2 p (0 : Fin 1))).toInt.toNat (N - 1), by omega⟩ : Fin N) r) := by
  unfold Host.gather
  congr 1
  funext a
  refine Fin.ext ?_
  match a with
  | ⟨0, _⟩ =>
    show (rowsDims N D E wf).start (ix2 p r) idx 0 + (rowsDims N D E wf).batchCoord (ix2 p r) 0
        + (rowsDims N D E wf).offCoord (ix2 p r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 p r) ⟨List.idxOf (0 : Fin 2) (rowsDims N D E wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N D E wf).start (ix2 p r) idx 1 + (rowsDims N D E wf).batchCoord (ix2 p r) 1
        + (rowsDims N D E wf).offCoord (ix2 p r) 1 = r.val
    rw [GatherDims.batchCoord_eq_zero _ _ _ List.not_mem_nil]
    unfold GatherDims.start
    rw [dif_neg (show (1 : Fin 2) ∉ (rowsDims N D E wf).startIndexMap from (by decide : (1 : Fin 2) ∉ ([0] : List (Fin 2))))]
    simp only [Nat.add_zero, Nat.zero_add]
    rfl

end Cert.LibGatherRows2

end
-- ==== Proof.LibScatterRows.lean ====
import Idealize.ShloMosaic.PureOps.Ideal
import Idealize.ShloMosaic.Lib.ValueIdx

noncomputable section

namespace Idealize.ShloMosaic.ScatterRows

open Idealize.ShloMosaic Idealize.ShloMosaic.ValueIdx

variable {R C N : Nat}

/-- The dimension record of adding `N` update rows into an `R × C` table by row number. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- A row scatter-add leaves at `(r, c)` the old entry plus the updates of every row sent to `r`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

end Idealize.ShloMosaic.ScatterRows

end
-- ==== Proof.LibPlainMatmul.lean ====
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- Under a plain product's contraction the left operand is read at row `j 0`, column `k`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- Under a plain product's contraction the right operand is read at row `k`, column `j 1`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matrix product into a zero accumulator is, entry by entry, the sum over the contracted index of the products. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibClamp.lean ====
import Idealize.ShloMosaic.PureOps

namespace Cert.LibClamp

open Idealize.ShloMosaic

/-- A word that is not negative as a signed number has the same value signed and unsigned. -/
theorem toInt_eq_toNat (c : BitVec 32) (h : 0 ≤ c.toInt) : c.toInt = (c.toNat : Int) := by
  have := c.isLt
  unfold BitVec.toInt at h ⊢
  split at h <;> simp_all <;> omega

end Cert.LibClamp
-- ==== Proof.RefValue.lean ====
import proofs.«409789_j50697793962364_3_alg».proof.Proof.RefReadP
import proofs.«409789_j50697793962364_3_alg».proof.Proof.Spec
import proofs.«409789_j50697793962364_3_alg».proof.Proof.LibGatherRows2
import proofs.«409789_j50697793962364_3_alg».proof.Proof.LibScatterRows
import proofs.«409789_j50697793962364_3_alg».proof.Proof.LibPlainMatmul
import proofs.«409789_j50697793962364_3_alg».proof.Proof.LibClamp
import Idealize.ShloMosaic.Lib.IdealHost
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP

theorem ofNat_eq_iff (w : BitVec 32) (r : ℕ) (hr : r < 10000) : BitVec.ofNat 32 r = w ↔ w.toInt = (r : Int) := by
  constructor
  · rintro rfl
    rw [BitVec.toInt_eq_toNat_cond, BitVec.toNat_ofNat]
    have hm : r % 2 ^ 32 = r := Nat.mod_eq_of_lt (by omega)
    rw [hm, if_pos (by omega)]
  · intro h
    have h0 : 0 ≤ w.toInt := by omega
    have e := Cert.LibClamp.toInt_eq_toNat w h0
    apply BitVec.eq_of_toNat_eq
    rw [BitVec.toNat_ofNat]
    omega

theorem sum_oh_row (w : BitVec 32) (h0 : 0 ≤ w.toInt) (h1 : w.toInt < 10000) (f : Fin 10000 → EReal) :
    ∑ r : Fin 10000, Cert.Spec.oh (BitVec.ofNat 32 r.val) w * f r = f ⟨w.toInt.toNat, by omega⟩ := by
  rw [Finset.sum_eq_single (⟨w.toInt.toNat, by omega⟩ : Fin 10000)]
  · unfold Cert.Spec.oh
    rw [if_pos ((ofNat_eq_iff w _ (by omega)).2 (by simp only []; omega)), one_mul]
  · intro r _ hne
    unfold Cert.Spec.oh
    rw [if_neg, zero_mul]
    intro h
    have := (ofNat_eq_iff w r.val r.isLt).1 h
    exact hne (Fin.ext (by simp only []; omega))
  · intro h; exact absurd (Finset.mem_univ _) h

theorem ite_eq_oh_mul (w : BitVec 32) (k : Fin 10000) (u : EReal) :
    (if w.toInt = (k.val : Int) then u else 0) = Cert.Spec.oh (BitVec.ofNat 32 k.val) w * u := by
  unfold Cert.Spec.oh
  by_cases h : w.toInt = (k.val : Int)
  · rw [if_pos h, if_pos ((ofNat_eq_iff w k.val k.isLt).2 h), one_mul]
  · rw [if_neg h, if_neg (fun h' => h ((ofNat_eq_iff w k.val k.isLt).1 h')), zero_mul]

theorem not_slt_zero (w : BitVec 32) (h0 : 0 ≤ w.toInt) : IntOp.cmpi .slt w 0#32 = 0#1 := by
  have hz : (0#32 : BitVec 32).toInt = 0 := by decide
  unfold IntOp.cmpi
  have : w.slt 0#32 = false := by
    simp only [BitVec.slt, decide_eq_false_iff_not]; omega
  simp [this]

theorem ofBits_neg_inf : Ideal.ofBits .f32 0xFF800000#32 = (⊥ : EReal) := by simp [Ideal.ofBits, Ideal.ieee]

theorem gather_eq_rows : gather_S10000x128_S640000x1_S640000x128_1_0_n_n_0_1_1128
    = Cert.LibGatherRows2.rowsDims 10000 128 640000 gather_S10000x128_S640000x1_S640000x128_1_0_n_n_0_1_1128_wf := rfl

theorem scatter_eq_rows : scatter_S10000x128_S640000x1_S640000x128_1_0_0_1
    = ScatterRows.dims2 (R := 10000) (C := 128) (N := 640000) scatter_S10000x128_S640000x1_S640000x128_1_0_0_1_wf := rfl

theorem dot_eq_plain : dot_S10000x128_S128x128_S10000x128_1_0_0_1_n_n = DotDims.plain 10000 128 128 := rfl

theorem gather_row (T : FVec Ideal S10000x128 .f32) (idx : IVec S640000x1 32) (e : Fin 640000) (j : Fin 128)
    (h0 : 0 ≤ (idx (ix2 e (0 : Fin 1))).toInt) (h1 : (idx (ix2 e (0 : Fin 1))).toInt < 10000) :
    Host.gather gather_S10000x128_S640000x1_S640000x128_1_0_n_n_0_1_1128 T idx (ix2 e j)
      = ∑ r : Fin 10000, Cert.Spec.oh (BitVec.ofNat 32 r.val) (idx (ix2 e (0 : Fin 1))) * T (ix2 r j) := by
  rw [gather_eq_rows, Cert.LibGatherRows2.gather_rows2_apply (by decide : 0 < 10000),
    sum_oh_row _ h0 h1 (fun r => T (ix2 r j))]
  refine congrArg (fun r : Fin 10000 => T (ix2 r j)) (Fin.ext ?_)
  show min (idx (ix2 e (0 : Fin 1))).toInt.toNat (10000 - 1) = (idx (ix2 e (0 : Fin 1))).toInt.toNat
  omega

theorem scatter_row (z : FVec Ideal S10000x128 .f32) (idx : IVec S640000x1 32) (upd : FVec Ideal S640000x128 .f32)
    (k : Fin 10000) (j : Fin 128) :
    Host.scatterAdd scatter_S10000x128_S640000x1_S640000x128_1_0_0_1 z idx upd (ix2 k j)
      = z (ix2 k j) + ∑ e : Fin 640000, Cert.Spec.oh (BitVec.ofNat 32 k.val) (idx (ix2 e (0 : Fin 1))) * upd (ix2 e j) := by
  show Ideal.hostScatterAdd scatter_S10000x128_S640000x1_S640000x128_1_0_0_1 z idx upd (ix2 k j) = _
  rw [scatter_eq_rows, ScatterRows.scatterAdd_apply]
  exact congrArg (z (ix2 k j) + ·) (Finset.sum_congr rfl fun e _ => ite_eq_oh_mul _ k _)

theorem dot_apply (y : FVec Ideal S10000x128 .f32) (w : FVec Ideal S128x128 .f32) (k : Fin 10000) (j : Fin 128) :
    Host.dotGeneral dot_S10000x128_S128x128_S10000x128_1_0_0_1_n_n none y w (ix2 k j)
      = ∑ q : Fin 128, y (ix2 k q) * w (ix2 q j) := by
  rw [dot_eq_plain]
  simp only [Host.dotGeneral]
  rw [Ideal.dotGeneral_apply, ← Equiv.sum_comp (contrEquiv1 (DotDims.plain 10000 128 128) 128 rfl rfl).symm]
  refine Finset.sum_congr rfl fun q _ => ?_
  rw [Cert.Lib.plain_lhsIdx, Cert.Lib.plain_rhsIdx]
  rfl

theorem lift_row {m n : ℕ} (h : (⟨2, ![m, n]⟩ : Shape).Reduces [1] (⟨1, ![m]⟩ : Shape)) (p : Fin m)
    (q : Fin ((⟨2, ![m, n]⟩ : Shape).size 1)) : h.lift (ix1 p) q = ix2 p (⟨q.val, q.isLt⟩ : Fin n) := by
  funext c; apply Fin.ext
  fin_cases c <;> rfl

theorem hostRowMax (y : FVec Ideal S10000x128 .f32) (init : FVec Ideal S_ .f32) (hu : 0 < S_.numel)
    (hinit : init (Shape.Idx.first hu) = (⊥ : EReal)) (h' : S10000x128.ReducesTo [1] S10000) (k : Fin 10000) :
    Host.reduce FloatOps.maximumf y init h' hu (ix1 k) = Finset.univ.sup fun q : Fin 128 => y (ix2 k q) := by
  have h : S10000x128.Reduces [1] S10000 := by decide
  rw [Host.reduce_eq_fold_single FloatOps.maximumf y init h' h hu, hinit]
  have hf : (y ∘ h.lift (ix1 k)) = fun q : Fin 128 => y (ix2 k q) := funext fun q => congrArg y (lift_row h k q)
  rw [hf]
  rfl

abbrev mat2 {n m : ℕ} (v : FVec Ideal ⟨2, ![n, m]⟩ .f32) : Cert.Spec.Mat n m := fun a b => v (ix2 a b)
abbrev vec1 {n : ℕ} (v : FVec Ideal ⟨1, ![n]⟩ .f32) : Fin n → EReal := fun a => v (ix1 a)
abbrev edgeRow (ei : IVec S2x640000 32) (a : Fin 2) : Fin 640000 → BitVec 32 := fun e => ei (ix2 a e)

theorem spec_conv_eq (h : Cert.Spec.Mat 10000 128) (src dst : Fin 640000 → BitVec 32) (w : Cert.Spec.Mat 128 128)
    (b : Fin 128 → EReal) (k : Fin 10000) (j : Fin 128) :
    Cert.Spec.conv h src dst w b k j
      = (∑ q : Fin 128, (h k q + ∑ e : Fin 640000, Cert.Spec.oh (BitVec.ofNat 32 k.val) (dst e)
          * ∑ r : Fin 10000, Cert.Spec.oh (BitVec.ofNat 32 r.val) (src e) * h r q) * w q j) + b j := rfl

theorem conv_apply (T z o : FVec Ideal S10000x128 .f32) (sc dc : IVec S640000x1 32) (w : FVec Ideal S128x128 .f32)
    (bb : FVec Ideal S10000x128 .f32) (b : FVec Ideal S128 .f32) (src dst : Fin 640000 → BitVec 32)
    (hz : ∀ i, z i = 0) (ho : ∀ i, o i = 1) (hs : ∀ e, sc (ix2 e (0 : Fin 1)) = src e)
    (hd : ∀ e, dc (ix2 e (0 : Fin 1)) = dst e) (hr : ∀ e, 0 ≤ (src e).toInt ∧ (src e).toInt < 10000)
    (hb : ∀ k j, bb (ix2 k j) = b (ix1 j)) (k : Fin 10000) (j : Fin 128) :
    addf (Host.dotGeneral dot_S10000x128_S128x128_S10000x128_1_0_0_1_n_n none
        (addf (mulf o T) (Host.scatterAdd scatter_S10000x128_S640000x1_S640000x128_1_0_0_1 z dc
          (Host.gather gather_S10000x128_S640000x1_S640000x128_1_0_n_n_0_1_1128 T sc))) w) bb (ix2 k j)
      = Cert.Spec.conv (mat2 T) src dst (mat2 w) (vec1 b) k j := by
  rw [spec_conv_eq, addf_apply, dot_apply, hb]
  refine congrArg (· + b (ix1 j)) (Finset.sum_congr rfl fun q _ => ?_)
  rw [addf_apply, mulf_apply, ho, one_mul, scatter_row, hz, zero_add]
  refine congrArg (fun t => (T (ix2 k q) + t) * w (ix2 q j)) (Finset.sum_congr rfl fun e _ => ?_)
  rw [hd, gather_row T sc e q (by rw [hs]; exact (hr e).1) (by rw [hs]; exact (hr e).2), hs]

section Stages

variable (x : FVec Ideal S10000x128 .f32) (ei : IVec S2x640000 32) (w1 : FVec Ideal S128x128 .f32)
  (b1 : FVec Ideal S128 .f32) (w2 : FVec Ideal S128x128 .f32) (b2 : FVec Ideal S128 .f32)

theorem zeros1 (i : S10000x128.Idx) : val_main_v11 (F := Ideal) i = (0 : EReal) := by
  rw [val_main_v11_apply, val_main_cst_apply]; exact Ideal.ofBits_zero_f32

theorem zeros2 (i : S10000x128.Idx) : val_main_v29 (F := Ideal) i = (0 : EReal) := by
  rw [val_main_v29_apply, val_main_cst_4_apply]; exact Ideal.ofBits_zero_f32

theorem ones1 (i : S10000x128.Idx) : val_main_v14 (F := Ideal) i = (1 : EReal) := by
  rw [val_main_v14_apply, val_main_cst_1_apply]; exact Ideal.ofBits_one_f32

theorem ones2 (i : S10000x128.Idx) : val_main_v32 (F := Ideal) i = (1 : EReal) := by
  rw [val_main_v32_apply, val_main_cst_5_apply]; exact Ideal.ofBits_one_f32

theorem reluZero (i : S10000x128.Idx) : val_main_call0_v0 (F := Ideal) i = (0 : EReal) := by
  rw [val_main_call0_v0_apply, val_main_call0_cst_apply]; exact Ideal.ofBits_zero_f32

theorem bias1 (k : Fin 10000) (j : Fin 128) : val_main_v19 (F := Ideal) b1 (ix2 k j) = b1 (ix1 j) := by
  rw [val_main_v19_apply, val_main_v18_apply]
  exact congrArg b1 (funext fun a => Fin.ext (by match a with | ⟨0, _⟩ => rfl))

theorem bias2 (k : Fin 10000) (j : Fin 128) : val_main_v37 (F := Ideal) b2 (ix2 k j) = b2 (ix1 j) := by
  rw [val_main_v37_apply, val_main_v36_apply]
  exact congrArg b2 (funext fun a => Fin.ext (by match a with | ⟨0, _⟩ => rfl))

theorem starts_apply (e : Fin 640000) : val_main_v1 (F := Ideal) ei (ix1 e) = ei (ix2 (0 : Fin 2) e) := by
  rw [val_main_v1_apply, val_main_v0_apply]
  exact congrArg ei (funext fun a => Fin.ext (by
    match a with
    | ⟨0, _⟩ => rfl
    | ⟨1, _⟩ => exact Nat.mod_eq_of_lt e.isLt))

theorem ends_apply (e : Fin 640000) : val_main_v3 (F := Ideal) ei (ix1 e) = ei (ix2 (1 : Fin 2) e) := by
  rw [val_main_v3_apply, val_main_v2_apply]
  exact congrArg ei (funext fun a => Fin.ext (by
    match a with
    | ⟨0, _⟩ => rfl
    | ⟨1, _⟩ => exact Nat.mod_eq_of_lt e.isLt))

variable (hei : ∀ (a : Fin 2) (e : Fin 640000), 0 ≤ (ei (ix2 a e)).toInt ∧ (ei (ix2 a e)).toInt < 10000)

include hei in
theorem norm1_apply (e : Fin 640000) : val_main_v8 (F := Ideal) ei (ix1 e) = ei (ix2 (0 : Fin 2) e) := by
  rw [val_main_v8_apply, val_main_v5_apply, val_main_v4_apply, val_main_c_apply, starts_apply,
    not_slt_zero _ (hei 0 e).1]
  exact select_zero _ _

include hei in
theorem norm2_apply (e : Fin 640000) : val_main_v26 (F := Ideal) ei (ix1 e) = ei (ix2 (0 : Fin 2) e) := by
  rw [val_main_v26_apply, val_main_v23_apply, val_main_v22_apply, val_main_c_2_apply, starts_apply,
    not_slt_zero _ (hei 0 e).1]
  exact select_zero _ _

include hei in
theorem srcCol1 (e : Fin 640000) : val_main_v9 (F := Ideal) ei (ix2 e (0 : Fin 1)) = edgeRow ei 0 e := by
  rw [val_main_v9_apply]
  exact (congrArg (val_main_v8 (F := Ideal) ei) (funext fun a => Fin.ext (by match a with | ⟨0, _⟩ => rfl))).trans
    (norm1_apply ei hei e)

include hei in
theorem srcCol2 (e : Fin 640000) : val_main_v27 (F := Ideal) ei (ix2 e (0 : Fin 1)) = edgeRow ei 0 e := by
  rw [val_main_v27_apply]
  exact (congrArg (val_main_v26 (F := Ideal) ei) (funext fun a => Fin.ext (by match a with | ⟨0, _⟩ => rfl))).trans
    (norm2_apply ei hei e)

theorem dstCol1 (e : Fin 640000) : val_main_v12 (F := Ideal) ei (ix2 e (0 : Fin 1)) = edgeRow ei 1 e := by
  rw [val_main_v12_apply]
  exact (congrArg (val_main_v3 (F := Ideal) ei) (funext fun a => Fin.ext (by match a with | ⟨0, _⟩ => rfl))).trans
    (ends_apply ei e)

theorem dstCol2 (e : Fin 640000) : val_main_v30 (F := Ideal) ei (ix2 e (0 : Fin 1)) = edgeRow ei 1 e := by
  rw [val_main_v30_apply]
  exact (congrArg (val_main_v3 (F := Ideal) ei) (funext fun a => Fin.ext (by match a with | ⟨0, _⟩ => rfl))).trans
    (ends_apply ei e)

include hei in
theorem layer1 (k : Fin 10000) (j : Fin 128) :
    val_main_v20 (F := Ideal) x ei w1 b1 (ix2 k j)
      = Cert.Spec.conv (mat2 x) (edgeRow ei 0) (edgeRow ei 1) (mat2 w1) (vec1 b1) k j :=
  conv_apply x (val_main_v11 (F := Ideal)) (val_main_v14 (F := Ideal)) (val_main_v9 (F := Ideal) ei)
    (val_main_v12 (F := Ideal) ei) w1 (val_main_v19 (F := Ideal) b1) b1 (edgeRow ei 0) (edgeRow ei 1)
    zeros1 ones1 (srcCol1 ei hei) (dstCol1 ei) (hei 0) (bias1 b1) k j

end Stages

section Result

variable (x : FVec Ideal S10000x128 .f32) (ei : IVec S2x640000 32) (w1 : FVec Ideal S128x128 .f32)
  (b1 : FVec Ideal S128 .f32) (w2 : FVec Ideal S128x128 .f32) (b2 : FVec Ideal S128 .f32)
  (hei : ∀ (a : Fin 2) (e : Fin 640000), 0 ≤ (ei (ix2 a e)).toInt ∧ (ei (ix2 a e)).toInt < 10000)

include hei in
theorem relu1 (k : Fin 10000) (j : Fin 128) :
    val_main_v21 (F := Ideal) x ei w1 b1 (ix2 k j)
      = Cert.Spec.relu (Cert.Spec.conv (mat2 x) (edgeRow ei 0) (edgeRow ei 1) (mat2 w1) (vec1 b1)) k j := by
  rw [val_main_v21_apply, reluZero]
  show max (val_main_v20 (F := Ideal) x ei w1 b1 (ix2 k j)) 0 = _
  rw [layer1 x ei w1 b1 hei]
  rfl

include hei in
theorem layer2 (k : Fin 10000) (j : Fin 128) :
    val_main_v38 (F := Ideal) x ei w1 b1 w2 b2 (ix2 k j)
      = Cert.Spec.conv (Cert.Spec.relu (Cert.Spec.conv (mat2 x) (edgeRow ei 0) (edgeRow ei 1) (mat2 w1) (vec1 b1)))
          (edgeRow ei 0) (edgeRow ei 1) (mat2 w2) (vec1 b2) k j := by
  have hT : mat2 (val_main_v21 (F := Ideal) x ei w1 b1)
      = Cert.Spec.relu (Cert.Spec.conv (mat2 x) (edgeRow ei 0) (edgeRow ei 1) (mat2 w1) (vec1 b1)) :=
    funext fun k => funext fun j => relu1 x ei w1 b1 hei k j
  rw [← hT]
  exact conv_apply (val_main_v21 (F := Ideal) x ei w1 b1) (val_main_v29 (F := Ideal)) (val_main_v32 (F := Ideal))
    (val_main_v27 (F := Ideal) ei) (val_main_v30 (F := Ideal) ei) w2 (val_main_v37 (F := Ideal) b2) b2
    (edgeRow ei 0) (edgeRow ei 1) zeros2 ones2 (srcCol2 ei hei) (dstCol2 ei) (hei 0) (bias2 b2) k j

theorem rowMax_apply (k : Fin 10000) :
    val_main_call1_v2 (F := Ideal) x ei w1 b1 w2 b2 (ix1 k)
      = Finset.univ.sup fun q : Fin 128 => val_main_v38 (F := Ideal) x ei w1 b1 w2 b2 (ix2 k q) := by
  rw [val_main_call1_v2_apply, val_main_call1_v1_apply, val_main_call1_cst_0_apply]
  unfold val_main_call1_v0
  rw [hostRowMax _ _ h_S_ (by rw [val_main_call1_cst_apply]; exact ofBits_neg_inf)]
  show max (Ideal.ofBits .f32 0xFF800000#32) _ = _
  rw [ofBits_neg_inf]
  exact max_eq_right bot_le

theorem centred_apply (k : Fin 10000) (j : Fin 128) :
    val_main_call1_v5 (F := Ideal) x ei w1 b1 w2 b2 (ix2 k j)
      = val_main_v38 (F := Ideal) x ei w1 b1 w2 b2 (ix2 k j)
        - Finset.univ.sup fun q : Fin 128 => val_main_v38 (F := Ideal) x ei w1 b1 w2 b2 (ix2 k q) := by
  rw [val_main_call1_v5_apply, val_main_call1_v4_apply, val_main_call1_v3_apply]
  show val_main_v38 (F := Ideal) x ei w1 b1 w2 b2 (ix2 k j) - _ = _
  refine congrArg (val_main_v38 (F := Ideal) x ei w1 b1 w2 b2 (ix2 k j) - ·) ?_
  refine (congrArg (val_main_call1_v2 (F := Ideal) x ei w1 b1 w2 b2) (funext fun a => Fin.ext (by
    match a with | ⟨0, _⟩ => rfl))).trans (rowMax_apply x ei w1 b1 w2 b2 k)

theorem rowSum_apply (k : Fin 10000) :
    val_main_call1_v7 (F := Ideal) x ei w1 b1 w2 b2 (ix1 k)
      = ∑ q : Fin 128, Ideal.exp (val_main_call1_v5 (F := Ideal) x ei w1 b1 w2 b2 (ix2 k q)) := by
  rw [val_main_call1_v7_apply, val_main_call1_cst_1_apply]
  show Ideal.ofBits .f32 0x00000000#32 + _ = _
  rw [Ideal.ofBits_zero_f32, zero_add]
  refine Finset.sum_congr rfl fun q _ => ?_
  rw [show idx_main_call1_v7 (ix1 k) q = ix2 k q from funext fun a => Fin.ext (by
    match a with | ⟨0, _⟩ => rfl | ⟨1, _⟩ => rfl), val_main_call1_v6_apply]
  rfl

theorem out_apply (k : Fin 10000) (j : Fin 128) :
    val_main_v39 (F := Ideal) x ei w1 b1 w2 b2 (ix2 k j)
      = val_main_call1_v5 (F := Ideal) x ei w1 b1 w2 b2 (ix2 k j)
        - Ideal.log (∑ q : Fin 128, Ideal.exp (val_main_call1_v5 (F := Ideal) x ei w1 b1 w2 b2 (ix2 k q))) := by
  rw [val_main_v39_apply, val_main_call1_v10_apply, val_main_call1_v9_apply, val_main_call1_v8_apply]
  show val_main_call1_v5 (F := Ideal) x ei w1 b1 w2 b2 (ix2 k j) - Ideal.log _ = _
  refine congrArg (fun t => val_main_call1_v5 (F := Ideal) x ei w1 b1 w2 b2 (ix2 k j) - Ideal.log t) ?_
  refine (congrArg (val_main_call1_v7 (F := Ideal) x ei w1 b1 w2 b2) (funext fun a => Fin.ext (by
    match a with | ⟨0, _⟩ => rfl))).trans (rowSum_apply x ei w1 b1 w2 b2 k)

include hei in
theorem ref_eq (k : Fin 10000) (j : Fin 128) :
    val_main_v39 (F := Ideal) x ei w1 b1 w2 b2 (ix2 k j)
      = Cert.Spec.gin (fun k j => x (ix2 k j)) (fun e => ei (ix2 0 e)) (fun e => ei (ix2 1 e))
          (fun r q => w1 (ix2 r q)) (fun q => b1 (ix1 q)) (fun r q => w2 (ix2 r q)) (fun q => b2 (ix1 q)) k j := by
  have hY : mat2 (val_main_v38 (F := Ideal) x ei w1 b1 w2 b2)
      = Cert.Spec.conv (Cert.Spec.relu (Cert.Spec.conv (mat2 x) (edgeRow ei 0) (edgeRow ei 1) (mat2 w1) (vec1 b1)))
          (edgeRow ei 0) (edgeRow ei 1) (mat2 w2) (vec1 b2) :=
    funext fun k => funext fun j => layer2 x ei w1 b1 w2 b2 hei k j
  show _ = Cert.Spec.lsm (Cert.Spec.conv (Cert.Spec.relu (Cert.Spec.conv (mat2 x) (edgeRow ei 0) (edgeRow ei 1)
    (mat2 w1) (vec1 b1))) (edgeRow ei 0) (edgeRow ei 1) (mat2 w2) (vec1 b2)) k j
  rw [← hY, out_apply]
  simp only [centred_apply]
  rfl

end Result

end Cert.ReferenceIdeal.RefValue

end
-- ==== Proof.PreDecode.lean ====
import proofs.«409789_j50697793962364_3_alg».proof.Defs
import proofs.«409789_j50697793962364_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.KernelIdeal.PreDecode

open Idealize.ShloMosaic Idealize.ShloMosaic.TcCoe Idealize.ShloMosaic.ValueIdx
open Idealize.SL Idealize.SL.Sem

instance : Subsingleton Cert.Pre_finite_inputs.S_.Idx := ⟨fun a b => funext fun d => d.elim0⟩

theorem word_range (w : BitVec 32) (h0 : IntOp.cmpi .sge w 0#32 = 1#1) (h1 : IntOp.cmpi .slt w 10000#32 = 1#1) :
    0 ≤ w.toInt ∧ w.toInt < 10000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (10000#32 : BitVec 32).toInt = 10000 := by decide
  omega

section
variable {F : FTy → Type} [FloatOps F] [Cert.Pre_finite_inputs.Facts]

open Cert.Pre_finite_inputs in
theorem range_of_pre (x0 : FVec F S10000x128 .f32) (x1 : IVec S2x640000 32) (x2 : FVec F S128x128 .f32)
    (x3 : FVec F S128 .f32) (x4 : FVec F S128x128 .f32) (x5 : FVec F S128 .f32)
    (h : Cert.Pre_finite_inputs.fn (F := F) x0 x1 x2 x3 x4 x5 = fun _ => 1#1) (a : Fin 2) (e : Fin 640000) :
    0 ≤ (x1 (ix2 a e)).toInt ∧ (x1 (ix2 a e)).toInt < 10000 := by
  have h0 := congrFun h ix0
  dsimp only [Cert.Pre_finite_inputs.fn, Cert.Pre_finite_inputs.fn_part1] at h0
  obtain ⟨h27, h30⟩ := IntOp.andi_eq_one.1 h0
  obtain ⟨-, h26⟩ := IntOp.andi_eq_one.1 h27
  have hge : IntOp.cmpi .sge (x1 (ix2 a e)) 0#32 = 1#1 := Host.reduce_andi_all _ _ _ _ ix0 h26 (ix2 a e)
  have hlt : IntOp.cmpi .slt (x1 (ix2 a e)) 10000#32 = 1#1 := Host.reduce_andi_all _ _ _ _ ix0 h30 (ix2 a e)
  exact word_range _ hge hlt
end

theorem range_of_Pre [Cert.Pre_finite_inputs.Facts] (m : (ℓ : Loc Cert.KernelIdeal.nD Cert.KernelIdeal.τ Cert.KernelIdeal.sig) → Buf (Elt Ideal) ℓ)
    (hm : Cert.Pre_KernelIdeal m) (c : Dev Cert.KernelIdeal.nD) (a : Fin 2) (e : Fin 640000) :
    0 ≤ ((m ((c.tc : Thread Cert.KernelIdeal.nD Cert.KernelIdeal.τ).loc Cert.KernelIdeal.main_arg1) : Cert.KernelIdeal.S2x640000.Idx → BitVec 32) (ix2 a e)).toInt
      ∧ ((m ((c.tc : Thread Cert.KernelIdeal.nD Cert.KernelIdeal.τ).loc Cert.KernelIdeal.main_arg1) : Cert.KernelIdeal.S2x640000.Idx → BitVec 32) (ix2 a e)).toInt < 10000 :=
  range_of_pre (F := Ideal) _ _ _ _ _ _ (hm c) a e

end Cert.KernelIdeal.PreDecode

end
-- ==== Proof.AggPay.lean ====
import proofs.«409789_j50697793962364_3_alg».proof.Proof.Gen.KernelIdeal.Skeleton
import proofs.«409789_j50697793962364_3_alg».proof.Proof.Spec
import proofs.«409789_j50697793962364_3_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AggPay

open Idealize.ShloMosaic Idealize.ShloMosaic.ValueIdx Cert.KernelIdeal Cert.KernelIdeal.Gen Cert.Spec

theorem bit_val (a b : BitVec 32) :
    (FloatOps.sitofp (F := Ideal) .f32 ((IntOp.cmpi .eq a b).setWidth 32) : Ideal .f32) = oh a b := by
  show ((((IntOp.cmpi .eq a b).setWidth 32).toInt : ℝ) : EReal) = oh a b
  unfold oh IntOp.cmpi
  by_cases h : a = b
  · subst h; simp
  · have hb : (a == b) = false := by simpa using h
    simp [hb, h]

theorem ind_apply (v : Vec Ideal S1x256 .i32) (hi : S10000x256.Iotas .tc 32 [0]) (hc : S1x256.ShapeCasts S1x256)
    (hb : S1x256.Broadcasts S10000x256) (h1 : 1 < 32) (h2 : FTy.bits .bf16 < FTy.bits .f32) (r : Fin 10000) (i : Fin 256) :
    (truncf .bf16 (sitofp (F := Ideal) .f32 (extui 32 (cmpi .eq (iota .tc S10000x256 32 [0] hi)
        (broadcastTo S10000x256 (shapeCast S1x256 v hc) hb)) h1)) h2 : FVec Ideal S10000x256 .bf16) (ix2 r i)
      = oh (BitVec.ofNat 32 r.val) (v (ix2 0 i)) := by
  show FloatOps.sitofp (F := Ideal) .f32 ((IntOp.cmpi .eq (iota .tc S10000x256 32 [0] hi (ix2 r i))
      (broadcastTo S10000x256 (shapeCast S1x256 v hc) hb (ix2 r i))).setWidth 32) = _
  rw [iota_single_apply, broadcastTo_1b_ab_apply, shapeCast_self]
  exact bit_val _ _

theorem lhs1_0 (o : S256x128.Idx) (q : dot_S10000x256_S10000x128_S256x128_0_0_1_1_n_n.contr.Idx) :
    (dot_S10000x256_S10000x128_S256x128_0_0_1_1_n_n.lhsIdx o q 0).val = (q ⟨0, by decide⟩).val :=
  dot_S10000x256_S10000x128_S256x128_0_0_1_1_n_n.lhsIdx_val_of_single rfl o q
theorem lhs1_1 (o : S256x128.Idx) (q : dot_S10000x256_S10000x128_S256x128_0_0_1_1_n_n.contr.Idx) :
    (dot_S10000x256_S10000x128_S256x128_0_0_1_1_n_n.lhsIdx o q 1).val = (o 0).val := by
  unfold DotDims.lhsIdx
  rw [dif_neg (show ¬(1 : Fin S10000x256.rank) ∈ dot_S10000x256_S10000x128_S256x128_0_0_1_1_n_n.lhsBatch by decide), dif_pos (show (1 : Fin S10000x256.rank) ∈ dot_S10000x256_S10000x128_S256x128_0_0_1_1_n_n.lhsNonContracting by decide)]
  rfl
theorem rhs1_0 (o : S256x128.Idx) (q : dot_S10000x256_S10000x128_S256x128_0_0_1_1_n_n.contr.Idx) :
    (dot_S10000x256_S10000x128_S256x128_0_0_1_1_n_n.rhsIdx o q 0).val = (q ⟨0, by decide⟩).val :=
  dot_S10000x256_S10000x128_S256x128_0_0_1_1_n_n.rhsIdx_val_of_single rfl o q
theorem rhs1_1 (o : S256x128.Idx) (q : dot_S10000x256_S10000x128_S256x128_0_0_1_1_n_n.contr.Idx) :
    (dot_S10000x256_S10000x128_S256x128_0_0_1_1_n_n.rhsIdx o q 1).val = (o 1).val := by
  unfold DotDims.rhsIdx
  rw [dif_neg (show ¬(1 : Fin S10000x128.rank) ∈ dot_S10000x256_S10000x128_S256x128_0_0_1_1_n_n.rhsBatch by decide), dif_pos (show (1 : Fin S10000x128.rank) ∈ dot_S10000x256_S10000x128_S256x128_0_0_1_1_n_n.rhsNonContracting by decide)]
  rfl

theorem mm1_apply (P : FVec Ideal S10000x256 .bf16) (f : FVec Ideal S10000x128 .bf16) (i : Fin 256) (j : Fin 128) :
    matmul dot_S10000x256_S10000x128_S256x128_0_0_1_1_n_n none P f (constant S256x128 .f32 0x00000000#32) (ix2 i j)
      = ∑ r : Fin 10000, P (ix2 r i) * f (ix2 r j) := by
  show FloatOps.matmul dot_S10000x256_S10000x128_S256x128_0_0_1_1_n_n none P f (constant S256x128 .f32 0x00000000#32) (ix2 i j) = _
  rw [Ideal.matmul_constant_zero_apply, ← Equiv.sum_comp (contrEquiv1 dot_S10000x256_S10000x128_S256x128_0_0_1_1_n_n 10000 rfl rfl).symm]
  refine Finset.sum_congr rfl fun r _ => ?_
  have hk := contrEquiv1_symm_val dot_S10000x256_S10000x128_S256x128_0_0_1_1_n_n 10000 rfl rfl r
  have el : dot_S10000x256_S10000x128_S256x128_0_0_1_1_n_n.lhsIdx (ix2 i j) ((contrEquiv1 dot_S10000x256_S10000x128_S256x128_0_0_1_1_n_n 10000 rfl rfl).symm r) = ix2 r i := funext fun a => Fin.ext (by
    match a with
    | ⟨0, _⟩ => exact (lhs1_0 _ _).trans hk
    | ⟨1, _⟩ => exact lhs1_1 _ _)
  have er : dot_S10000x256_S10000x128_S256x128_0_0_1_1_n_n.rhsIdx (ix2 i j) ((contrEquiv1 dot_S10000x256_S10000x128_S256x128_0_0_1_1_n_n 10000 rfl rfl).symm r) = ix2 r j := funext fun a => Fin.ext (by
    match a with
    | ⟨0, _⟩ => exact (rhs1_0 _ _).trans hk
    | ⟨1, _⟩ => exact rhs1_1 _ _)
  rw [el, er]

-- the second product contracts the left operand's columns with the right operand's rows: a plain product
theorem mm2_apply (Q : FVec Ideal S10000x256 .bf16) (g : FVec Ideal S256x128 .bf16) (k : Fin 10000) (j : Fin 128) :
    matmul dot_S10000x256_S256x128_S10000x128_1_0_0_1_n_n none Q g (constant S10000x128 .f32 0x00000000#32) (ix2 k j)
      = ∑ i : Fin 256, Q (ix2 k i) * g (ix2 i j) :=
  Cert.Lib.matmul_plain_zero_apply 10000 256 128 none Q g (ix2 k j)

theorem pay1_apply (i : S10000x128.Idx) : k0_pay1 (F := Ideal) i = 0 := by
  unfold k0_pay1
  rw [shapeCast_self]
  exact Ideal.ofBits_zero_f32

theorem pay2_apply (v3 v5 : Vec Ideal S1x256 .i32) (v18 : Vec Ideal S10000x128 .bf16) (v23 : Vec Ideal S10000x128 .f32)
    (k : Fin 10000) (j : Fin 128) :
    k0_pay2 (F := Ideal) v3 v5 v18 v23 (ix2 k j)
      = v23 (ix2 k j) + ∑ i : Fin 256, oh (BitVec.ofNat 32 k.val) (v5 (ix2 0 i))
          * ∑ r : Fin 10000, oh (BitVec.ofNat 32 r.val) (v3 (ix2 0 i)) * v18 (ix2 r j) := by
  unfold k0_pay2
  refine (congrFun (shapeCast_self _ _) _).trans ?_
  refine (addf_apply _ _ _).trans ?_
  refine congrArg (v23 (ix2 k j) + ·) ?_
  refine (mm2_apply _ _ k j).trans ?_
  refine Finset.sum_congr rfl fun i _ => ?_
  refine congr (congrArg _ (ind_apply v5 _ _ _ _ _ k i)) ?_
  refine (truncf_apply (φ := .f32) (ψ := .bf16) _ bitsLt_bf16_f32 (ix2 i j)).trans ?_
  refine (mm1_apply _ _ i j).trans ?_
  refine Finset.sum_congr rfl fun r _ => ?_
  refine congr (congrArg _ (ind_apply v3 _ _ _ _ _ r i)) ?_
  exact congrFun (shapeCast_self _ _) _

theorem pay3_apply (v31 : Vec Ideal S10000x128 .f32) (k : Fin 10000) (j : Fin 128) :
    k0_pay3 (F := Ideal) v31 (ix3 0 k j) = v31 (ix2 k j) := by
  unfold k0_pay3
  refine (shapeCast_addUnit_apply ![10000, 128] v31 _ (ix3 0 k j)).trans ?_
  refine congrArg v31 (funext fun a => ?_)
  match a with
  | ⟨0, _⟩ => rfl
  | ⟨1, _⟩ => rfl

theorem pay1_eq : k2_pay1 (F := Ideal) = k0_pay1 (F := Ideal) := rfl

theorem pay2_eq (v3 v5 : Vec Ideal S1x256 .i32) (v18 : Vec Ideal S10000x128 .bf16) (v23 : Vec Ideal S10000x128 .f32) :
    k2_pay2 (F := Ideal) v3 v5 v18 v23 = k0_pay2 (F := Ideal) v3 v5 v18 v23 := rfl

theorem pay3_eq (v31 : Vec Ideal S10000x128 .f32) : k2_pay3 (F := Ideal) v31 = k0_pay3 (F := Ideal) v31 := rfl

theorem pay1_apply' (i : S10000x128.Idx) : k2_pay1 (F := Ideal) i = 0 :=
  (congrFun pay1_eq i).trans (pay1_apply i)

theorem pay2_apply' (v3 v5 : Vec Ideal S1x256 .i32) (v18 : Vec Ideal S10000x128 .bf16) (v23 : Vec Ideal S10000x128 .f32)
    (k : Fin 10000) (j : Fin 128) :
    k2_pay2 (F := Ideal) v3 v5 v18 v23 (ix2 k j)
      = v23 (ix2 k j) + ∑ i : Fin 256, oh (BitVec.ofNat 32 k.val) (v5 (ix2 0 i))
          * ∑ r : Fin 10000, oh (BitVec.ofNat 32 r.val) (v3 (ix2 0 i)) * v18 (ix2 r j) :=
  (congrFun (pay2_eq v3 v5 v18 v23) _).trans (pay2_apply v3 v5 v18 v23 k j)

theorem pay3_apply' (v31 : Vec Ideal S10000x128 .f32) (k : Fin 10000) (j : Fin 128) :
    k2_pay3 (F := Ideal) v31 (ix3 0 k j) = v31 (ix2 k j) :=
  (congrFun (pay3_eq v31) _).trans (pay3_apply v31 k j)

end Cert.KernelIdeal.AggPay

end
-- ==== Proof.SumSplit.lean ====
import proofs.«409789_j50697793962364_3_alg».proof.Proof.Spec
import Mathlib.Algebra.BigOperators.Fin
import Mathlib.Algebra.BigOperators.Group.Finset.Defs
import Mathlib.Data.Fintype.BigOperators

noncomputable section

namespace Cert.Spec

def col (cc : Fin 2) (e : Fin 1250) (i : Fin 256) : Fin 640000 := ⟨256 * (1250 * cc.val + e.val) + i.val, by omega⟩

def colEquiv : Fin 2 × Fin 1250 × Fin 256 ≃ Fin 640000 where
  toFun x := col x.1 x.2.1 x.2.2
  invFun n := (⟨n.val / 320000, by omega⟩, ⟨n.val / 256 % 1250, by omega⟩, ⟨n.val % 256, by omega⟩)
  left_inv := by
    rintro ⟨cc, e, i⟩
    refine Prod.ext (Fin.ext ?_) (Prod.ext (Fin.ext ?_) (Fin.ext ?_))
    · show (256 * (1250 * cc.val + e.val) + i.val) / 320000 = cc.val; omega
    · show (256 * (1250 * cc.val + e.val) + i.val) / 256 % 1250 = e.val; omega
    · show (256 * (1250 * cc.val + e.val) + i.val) % 256 = i.val; omega
  right_inv := by
    intro n
    apply Fin.ext
    show 256 * (1250 * (n.val / 320000) + n.val / 256 % 1250) + n.val % 256 = n.val
    omega

variable {M : Type*} [AddCommMonoid M]

theorem sum_cols (T : Fin 640000 → M) :
    (∑ cc : Fin 2, ∑ e : Fin 1250, ∑ i : Fin 256, T (col cc e i)) = ∑ n : Fin 640000, T n :=
  calc (∑ cc : Fin 2, ∑ e : Fin 1250, ∑ i : Fin 256, T (col cc e i))
      = ∑ cc : Fin 2, ∑ y : Fin 1250 × Fin 256, T (col cc y.1 y.2) :=
        Finset.sum_congr rfl fun cc _ => (Fintype.sum_prod_type (fun y : Fin 1250 × Fin 256 => T (col cc y.1 y.2))).symm
    _ = ∑ x : Fin 2 × Fin 1250 × Fin 256, T (col x.1 x.2.1 x.2.2) :=
        (Fintype.sum_prod_type (fun x : Fin 2 × Fin 1250 × Fin 256 => T (col x.1 x.2.1 x.2.2))).symm
    _ = ∑ n : Fin 640000, T n := Fintype.sum_equiv colEquiv _ _ (fun _ => rfl)

theorem sum_two_cores (T : Fin 640000 → M) :
    (∑ e : Fin 1250, ∑ i : Fin 256, T (col 0 e i)) + (∑ e : Fin 1250, ∑ i : Fin 256, T (col 1 e i)) = ∑ n : Fin 640000, T n := by
  rw [← sum_cols T, Fin.sum_univ_two]

theorem agg_eq_cores (h : Mat 10000 128) (src dst : Fin 640000 → BitVec 32) (k : Fin 10000) (j : Fin 128) :
    (∑ e : Fin 1250, ∑ i : Fin 256, oh (BitVec.ofNat 32 k.val) (dst (col 0 e i)) * ∑ r : Fin 10000, oh (BitVec.ofNat 32 r.val) (src (col 0 e i)) * h r j)
      + (∑ e : Fin 1250, ∑ i : Fin 256, oh (BitVec.ofNat 32 k.val) (dst (col 1 e i)) * ∑ r : Fin 10000, oh (BitVec.ofNat 32 r.val) (src (col 1 e i)) * h r j)
      = agg h src dst k j :=
  sum_two_cores (fun n => oh (BitVec.ofNat 32 k.val) (dst n) * ∑ r : Fin 10000, oh (BitVec.ofNat 32 r.val) (src n) * h r j)

end Cert.Spec

end
-- ==== Proof.AggSum.lean ====
import proofs.«409789_j50697793962364_3_alg».proof.Proof.SumSplit

noncomputable section

namespace Cert.Spec

def colN (p : ℕ) (i : Fin 256) : Fin 640000 := ⟨(256 * p + i.val) % 640000, Nat.mod_lt _ (by decide)⟩

theorem colN_eq (cc : Fin 2) (e : Fin 1250) (i : Fin 256) : colN (1250 * cc.val + e.val) i = col cc e i :=
  Fin.ext (Nat.mod_eq_of_lt (by have := cc.isLt; have := e.isLt; have := i.isLt; omega))

-- one core's half of the neighbour sum: its 1250 blocks of 256 edges
def coreSum (h : Mat 10000 128) (src dst : Fin 640000 → BitVec 32) (cc : Fin 2) (k : Fin 10000) (j : Fin 128) : EReal :=
  ∑ e : Fin 1250, ∑ i : Fin 256, oh (BitVec.ofNat 32 k.val) (dst (col cc e i)) * ∑ r : Fin 10000, oh (BitVec.ofNat 32 r.val) (src (col cc e i)) * h r j

variable (h : Mat 10000 128) (src dst : Fin 640000 → BitVec 32) (k : Fin 10000) (j : Fin 128)

-- what the 256 edges of block number p add to entry (k, j)
def term (p : ℕ) : EReal :=
  ∑ i : Fin 256, oh (BitVec.ofNat 32 k.val) (dst (colN p i)) * ∑ r : Fin 10000, oh (BitVec.ofNat 32 r.val) (src (colN p i)) * h r j

-- the running sum after block n: the blocks of n's row of 1250 up to n
def acc (n : ℕ) : EReal := ∑ s ∈ Finset.range (n % 1250 + 1), term h src dst k j (1250 * (n / 1250) + s)

theorem acc_first (n : ℕ) (h0 : n % 1250 = 0) : acc h src dst k j n = term h src dst k j n := by
  unfold acc
  rw [h0, Finset.sum_range_one]
  exact congrArg (term h src dst k j) (by omega)

theorem acc_step (n : ℕ) (h0 : ¬(n + 1) % 1250 = 0) : acc h src dst k j (n + 1) = acc h src dst k j n + term h src dst k j (n + 1) := by
  unfold acc
  rw [show (n + 1) / 1250 = n / 1250 by omega, show (n + 1) % 1250 = n % 1250 + 1 by omega, Finset.sum_range_succ]
  exact congrArg (_ + term h src dst k j ·) (by omega)

theorem acc_pred (n : ℕ) (h0 : ¬n % 1250 = 0) : acc h src dst k j (n - 1) + term h src dst k j n = acc h src dst k j n := by
  obtain ⟨m, rfl⟩ : ∃ m, n = m + 1 := ⟨n - 1, by omega⟩
  rw [Nat.add_sub_cancel]
  exact (acc_step h src dst k j m h0).symm

-- after the last block of a row the running sum is that core's half
theorem acc_last (n : ℕ) (h1 : n % 1250 = 1249) (hn : n / 1250 < 2) : acc h src dst k j n = coreSum h src dst ⟨n / 1250, hn⟩ k j := by
  unfold acc coreSum
  rw [h1, Finset.sum_range]
  refine Finset.sum_congr rfl fun e _ => Finset.sum_congr rfl fun i _ => ?_
  rw [show colN (1250 * (n / 1250) + e.val) i = col ⟨n / 1250, hn⟩ e i from colN_eq ⟨n / 1250, hn⟩ e i]

end Cert.Spec

end
-- ==== Proof.AggValue0.lean ====
import proofs.«409789_j50697793962364_3_alg».proof.Proof.AggDat0
import proofs.«409789_j50697793962364_3_alg».proof.Proof.AggPay
import proofs.«409789_j50697793962364_3_alg».proof.Proof.AggSum
import Idealize.ShloMosaic.Lib.Pipeline.Value
import Idealize.ShloMosaic.Lib.ValueIdx
import Idealize.ShloMosaic.Lib.Tactic

noncomputable section

namespace Cert.KernelIdeal.Val0

open Cert.KernelIdeal Cert.KernelIdeal.Gen Cert.KernelIdeal.Fr0 Cert.Spec
open Idealize.ShloMosaic Idealize.ShloMosaic.TcCoe Idealize.ShloMosaic.ValueIdx Idealize.ShloMosaic.Tactic
open Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F] (c : Dev nD) (i : grid0.Coords)
  (arg2 : Memref sig .tc .vmem S10000x128 .bf16) (harg2 : arg2.IsWhole) (arg3 : Memref sig .tc .vmem S1x256 .i32) (harg3 : arg3.IsWhole)
  (arg4 : Memref sig .tc .vmem S1x256 .i32) (harg4 : arg4.IsWhole) (arg5 : Memref sig .tc .vmem S1x10000x128 .f32) (harg5 : arg5.IsWhole)
  (arg6 : Memref sig .tc .vmem S10000x128 .f32) (harg6 : arg6.IsWhole)
  (x0 : Vec F S10000x128 .bf16) (x1 x2 : Vec F S1x256 .i32) (xs : Vec F S10000x128 .f32)

theorem sout_BC_eq (hc0 : ¬condFirst i) :
    (∀ hc1, rdS (kernelRun_B c i arg2 harg2 arg3 harg3 arg4 harg4 arg5 harg5 arg6 harg6 hc0 hc1 x0 x1 x2 xs).2.1 = k0_pay2 x1 x2 x0 xs)
      ∧ ∀ hc1, rdS (kernelRun_C c i arg2 harg2 arg3 harg3 arg4 harg4 arg5 harg5 arg6 harg6 hc0 hc1 x0 x1 x2 xs).2.1 = k0_pay2 x1 x2 x0 xs := by
  refine ⟨fun hc1 => ?_, fun hc1 => ?_⟩ <;>
  · unfold rdS
    rw [View.read_writes_eq_canon _ _ _ (View.cover_of_tiledL _ S10000x128.size (by sl_kernel_rfl))]
    dsimp only [kernelRun_B, kernelRun_C]
    sl_unfold_words
    rw [View.canon_unit_zero hz2]
    simp only [View.readAt_eq_ld, harg2.read_unread, harg3.read_unread, harg4.read_unread, harg6.read_unread,
      View.ld_unit_zero (S := S10000x128) hz2, View.ld_unit_zero (S := S1x256) hz2]

theorem out_C_3_eq (hc0 : ¬condFirst i) (hc1 : condLast i) :
    rdO (kernelRun_C c i arg2 harg2 arg3 harg3 arg4 harg4 arg5 harg5 arg6 harg6 hc0 hc1 x0 x1 x2 xs).1 = k0_pay3 (k0_pay2 x1 x2 x0 xs) := by
  unfold rdO
  rw [View.read_writes_eq_canon _ _ _ (View.cover_of_tiledL _ S1x10000x128.size (by sl_kernel_rfl))]
  unfold kernelRun_C
  dsimp only
  sl_unfold_words
  rw [View.canon_unit_zero hz3]
  simp only [View.readCov_unit_zero (S := S10000x128) _ hz2, View.readAt_eq_ld, harg2.read_unread, harg3.read_unread,
    harg4.read_unread, harg6.read_unread, View.ld_unit_zero (S := S10000x128) hz2, View.ld_unit_zero (S := S1x256) hz2]

theorem sout_A_eq (hc0 : condFirst i) (hc1 : ¬condLast i) :
    rdS (kernelRun_A c i arg2 harg2 arg3 harg3 arg4 harg4 arg5 harg5 arg6 harg6 hc0 hc1 x0 x1 x2).2.1 = k0_pay2 x1 x2 x0 (k0_pay1 (F := F)) := by
  unfold rdS
  rw [View.read_writes_eq_canon _ _ _ (View.cover_of_tiledL _ S10000x128.size (by sl_kernel_rfl))]
  unfold kernelRun_A
  dsimp only
  sl_unfold_words
  rw [View.canon_cons_unit_zero (S := S10000x128) hz2, View.readCov_unit_zero (S := S10000x128) _ hz2]
  simp only [View.readAt_eq_ld, harg2.read_unread, harg3.read_unread, harg4.read_unread,
    View.ld_unit_zero (S := S10000x128) hz2, View.ld_unit_zero (S := S1x256) hz2]

end Pieces

section Arrays

variable (V : (c : Dev nD) → (b : Ref sig .tc) → Buf (Elt Ideal) ((c : Thread nD τ).loc b))

abbrev Fm (c : Dev nD) : S10000x128.Idx → EReal := V c main_v8
abbrev Sr (c : Dev nD) : S1x640000.Idx → BitVec 32 := V c main_v3
abbrev Ds (c : Dev nD) : S1x640000.Idx → BitVec 32 := V c main_v7

abbrev FmM (c : Dev nD) : Mat 10000 128 := fun r j => Fm V c (ix2 r j)
abbrev SrF (c : Dev nD) : Fin 640000 → BitVec 32 := fun e => Sr V c (ix2 0 e)
abbrev DsF (c : Dev nD) : Fin 640000 → BitVec 32 := fun e => Ds V c (ix2 0 e)
abbrev term (c : Dev nD) := Cert.Spec.term (FmM V c) (SrF V c) (DsF V c)
abbrev acc (c : Dev nD) := Cert.Spec.acc (FmM V c) (SrF V c) (DsF V c)

abbrev fblk (c : Dev nD) (t : Fin cfg0.N) : Vec Ideal S10000x128 .bf16 := iblk V c 0 t
abbrev sblk (c : Dev nD) (t : Fin cfg0.N) : Vec Ideal S1x256 .i32 := iblk V c 1 t
abbrev dblk (c : Dev nD) (t : Fin cfg0.N) : Vec Ideal S1x256 .i32 := iblk V c 2 t

theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 3) = t.val / 1250 ∧ win0_3.index t (1 : Fin 3) = 0 ∧ win0_3.index t (2 : Fin 3) = 0 :=
  (by decide +kernel : ∀ t : Fin grid0.N, _)

theorem fblk_apply (c : Dev nD) (t : Fin cfg0.N) (r : Fin 10000) (j : Fin 128) :
    fblk V c t (ix2 r j) = Fm V c (ix2 r j) := by
  obtain ⟨e0, e1, -⟩ := idx_facts t
  show Fm V c (((cfg0.win 0).blk t).view.emb (ix2 r j)) = Fm V c (ix2 r j)
  refine congrArg (Fm V c) (funext fun a => Fin.ext ?_)
  match a with
  | ⟨0, _⟩ => show win0_0.index t (0 : Fin 2) * 10000 + 1 * r.val = r.val; omega
  | ⟨1, _⟩ => show win0_0.index t (1 : Fin 2) * 128 + 1 * j.val = j.val; omega

theorem sblk_apply (c : Dev nD) (t : Fin cfg0.N) (i : Fin 256) :
    sblk V c t (ix2 0 i) = Sr V c (ix2 0 (colN t.val i)) := by
  obtain ⟨-, -, e0, e1, -⟩ := idx_facts t
  have hN : t.val < 2500 := lt_of_lt_of_eq t.isLt (show cfg0.N = 2500 from N_0)
  show Sr V c (((cfg0.win 1).blk t).view.emb (ix2 0 i)) = Sr V c (ix2 0 (colN t.val i))
  refine congrArg (Sr V c) (funext fun a => Fin.ext ?_)
  match a with
  | ⟨0, _⟩ => show win0_1.index t (0 : Fin 2) * 1 + 1 * 0 = 0; omega
  | ⟨1, _⟩ => show win0_1.index t (1 : Fin 2) * 256 + 1 * i.val = (256 * t.val + i.val) % 640000; have := i.isLt; omega

theorem dblk_apply (c : Dev nD) (t : Fin cfg0.N) (i : Fin 256) :
    dblk V c t (ix2 0 i) = Ds V c (ix2 0 (colN t.val i)) := by
  obtain ⟨-, -, -, -, e0, e1, -⟩ := idx_facts t
  have hN : t.val < 2500 := lt_of_lt_of_eq t.isLt (show cfg0.N = 2500 from N_0)
  show Ds V c (((cfg0.win 2).blk t).view.emb (ix2 0 i)) = Ds V c (ix2 0 (colN t.val i))
  refine congrArg (Ds V c) (funext fun a => Fin.ext ?_)
  match a with
  | ⟨0, _⟩ => show win0_2.index t (0 : Fin 2) * 1 + 1 * 0 = 0; omega
  | ⟨1, _⟩ => show win0_2.index t (1 : Fin 2) * 256 + 1 * i.val = (256 * t.val + i.val) % 640000; have := i.isLt; omega

end Arrays

section Sum

variable (V : (c : Dev nD) → (b : Ref sig .tc) → Buf (Elt Ideal) ((c : Thread nD τ).loc b))

theorem pay2_at (c : Dev nD) (t : Fin cfg0.N) (xs : Vec Ideal S10000x128 .f32) (k : Fin 10000) (j : Fin 128) :
    k0_pay2 (F := Ideal) (sblk V c t) (dblk V c t) (fblk V c t) xs (ix2 k j) = xs (ix2 k j) + term V c k j t.val := by
  refine (AggPay.pay2_apply (sblk V c t) (dblk V c t) (fblk V c t) xs k j).trans ?_
  refine congrArg (xs (ix2 k j) + ·) ?_
  unfold term Cert.Spec.term
  refine Finset.sum_congr rfl fun i _ => ?_
  rw [dblk_apply V c t i, sblk_apply V c t i]
  refine congrArg (_ * ·) (Finset.sum_congr rfl fun r _ => ?_)
  rw [fblk_apply V c t r j]

-- a first trip clears the scratch and adds its own contribution
theorem scratch_first (c : Dev nD) (k : Fin 10000) (j : Fin 128) (t : Fin cfg0.N) (h0 : t.val % 1250 = 0) :
    (outsAt V c t.val t.isLt).2 (ix2 k j) = acc V c k j t.val := by
  have h1 : ¬t.val % 1250 = 1249 := by omega
  rw [outsAt_A V c t h0 h1]
  dsimp only [rd]
  refine (congrFun (sout_A_eq ..) (ix2 k j)).trans ((pay2_at V c t (k0_pay1 (F := Ideal)) k j).trans ?_)
  rw [AggPay.pay1_apply, zero_add]
  exact (acc_first _ _ _ k j _ h0).symm

-- any other trip adds its contribution to what the trip before left
theorem scratch_next (c : Dev nD) (k : Fin 10000) (j : Fin 128) (t : Fin cfg0.N) (h0 : ¬t.val % 1250 = 0)
    (ih : prev V c t (ix2 k j) = acc V c k j (t.val - 1)) : (outsAt V c t.val t.isLt).2 (ix2 k j) = acc V c k j t.val := by
  have e : k0_pay2 (F := Ideal) (sblk V c t) (dblk V c t) (fblk V c t) (prev V c t) (ix2 k j) = acc V c k j t.val := by
    rw [pay2_at V c t (prev V c t) k j, ih]
    exact acc_pred _ _ _ k j t.val h0
  by_cases h1 : t.val % 1250 = 1249
  · rw [outsAt_C V c t h0 h1]; dsimp only [rd]
    exact (congrFun ((sout_BC_eq ..).2 _) (ix2 k j)).trans e
  · rw [outsAt_B V c t h0 h1]; dsimp only [rd]
    exact (congrFun ((sout_BC_eq ..).1 _) (ix2 k j)).trans e

theorem scratch_eq (c : Dev nD) (k : Fin 10000) (j : Fin 128) : ∀ (n : ℕ) (hn : n < cfg0.N),
    (outsAt V c n hn).2 (ix2 k j) = acc V c k j n := by
  intro n
  induction n with
  | zero => exact fun hn => scratch_first V c k j ⟨0, hn⟩ (Nat.zero_mod _)
  | succ n ih =>
    intro hn
    by_cases h0 : (n + 1) % 1250 = 0
    · exact scratch_first V c k j ⟨n + 1, hn⟩ h0
    · exact scratch_next V c k j ⟨n + 1, hn⟩ h0 (ih _)

theorem out_last (c : Dev nD) (t : Fin cfg0.N) (h1 : t.val % 1250 = 1249) (k : Fin 10000) (j : Fin 128) :
    (outsAt V c t.val t.isLt).1 (ix3 0 k j) = acc V c k j t.val := by
  have h0 : ¬t.val % 1250 = 0 := by omega
  rw [outsAt_C V c t h0 h1]
  dsimp only [rd]
  refine (congrFun (out_C_3_eq ..) (ix3 0 k j)).trans ((AggPay.pay3_apply _ k j).trans ((pay2_at V c t (prev V c t) k j).trans ?_))
  exact (congrArg (· + term V c k j t.val) (scratch_eq V c k j (t.val - 1) _)).trans (acc_pred _ _ _ k j t.val h0)

def G (c : Dev nD) : S2x10000x128.Idx → EReal := fun y => coreSum (FmM V c) (SrF V c) (DsF V c) (y 0) (y 1) (y 2)

theorem out_block (c : Dev nD) (t : Fin cfg0.N) (h1 : t.val % 1250 = 1249) (y : S1x10000x128.Idx) :
    (outsAt V c t.val t.isLt).1 y = G V c (((cfg0.win 3).blk t).view.emb y) := by
  have hy0 : @Eq (Fin 1) (y 0) 0 := Fin.ext (by have h : (y 0).val < 1 := (y 0).isLt; show (y 0).val = 0; omega)
  obtain ⟨k, j, rfl⟩ : ∃ (k : Fin 10000) (j : Fin 128), y = ix3 0 k j :=
    ⟨y 1, y 2, (eq_ix3 y).trans (congrArg (fun a : Fin 1 => ix3 a (y 1) (y 2)) hy0)⟩
  rw [out_last V c t h1 k j]
  obtain ⟨-, -, -, -, -, -, e0, e1, e2⟩ := idx_facts t
  have hN : t.val < 2500 := lt_of_lt_of_eq t.isLt (show cfg0.N = 2500 from N_0)
  have he : ((cfg0.win 3).blk t).view.emb (ix3 0 k j) = ix3 (⟨t.val / 1250, by omega⟩ : Fin 2) k j := funext fun a => Fin.ext (by
    match a with
    | ⟨0, _⟩ => show win0_3.index t (0 : Fin 3) * 1 + 1 * 0 = t.val / 1250; omega
    | ⟨1, _⟩ => show win0_3.index t (1 : Fin 3) * 10000 + 1 * k.val = k.val; omega
    | ⟨2, _⟩ => show win0_3.index t (2 : Fin 3) * 128 + 1 * j.val = j.val; omega)
  refine Eq.trans ?_ (congrArg (G V c) he).symm
  exact acc_last _ _ _ k j t.val h1 _

theorem flushed_eq (c : Dev nD) (t : Fin cfg0.N) (hf : (cfg0.win 3).flush t = true) :
    (dat V c).flushed 3 t = ((cfg0.win 3).blk t).view.read (Elt Ideal) (G V c) := by
  have h1 : t.val % 1250 = 1249 := (flush0_3 t).mp hf
  show (cfg0.win 3).cut (grid0.coords t) ((dat V c).after 3 t) = _
  rw [after_3]
  funext y
  exact out_block V c t h1 y

theorem mem_blk3 (t : Fin cfg0.N) (i : S2x10000x128.Idx) :
    i ∈ ((cfg0.win 3).blk t).view.set ↔ ∀ a : Fin 3, win0_3.index t a * S1x10000x128.size a ≤ (i a).val ∧ (i a).val < win0_3.index t a * S1x10000x128.size a + S1x10000x128.size a := by
  show i ∈ ((View.whole main_v9).slice (win0_3.rect t)).set ↔ _
  rw [View.set_slice_whole, Rect.mem_set_unit]
  exact Iff.rfl

theorem cover3 (i : S2x10000x128.Idx) :
    ∃ t : Fin cfg0.N, (cfg0.win 3).flush t = true ∧ i ∈ ((cfg0.win 3).blk t).view.set := by
  have hi0 : (i 0).val < 2 := (i 0).isLt
  have hi1 : (i 1).val < 10000 := (i 1).isLt
  have hi2 : (i 2).val < 128 := (i 2).isLt
  have hN : cfg0.N = 2500 := N_0
  obtain ⟨t, ht⟩ : ∃ t : Fin cfg0.N, t.val = 1250 * (i 0).val + 1249 := ⟨⟨_, by omega⟩, rfl⟩
  obtain ⟨-, -, -, -, -, -, e0, e1, e2⟩ := idx_facts t
  refine ⟨t, (flush0_3 t).mpr (by omega), (mem_blk3 t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10000 ≤ (i 1).val ∧ (i 1).val < win0_3.index t (1 : Fin 3) * 10000 + 10000; omega
  | ⟨2, _⟩ => show win0_3.index t (2 : Fin 3) * 128 ≤ (i 2).val ∧ (i 2).val < win0_3.index t (2 : Fin 3) * 128 + 128; omega

theorem arr_eq (c : Dev nD) : (dat V c).arrAt 3 cfg0.N = G V c :=
  (dat V c).arrAt_eq_of_cover 3 (G V c) (flushed_eq V c) cover3

theorem arr_out (c : Dev nD) (cc : Fin 2) (k : Fin 10000) (j : Fin 128) :
    ((dat V c).arrAt 3 cfg0.N : S2x10000x128.Idx → EReal) (ix3 cc k j) = coreSum (FmM V c) (SrF V c) (DsF V c) cc k j := by
  rw [arr_eq V c]
  rfl

end Sum

end Cert.KernelIdeal.Val0

end
-- ==== Proof.AggValue2.lean ====
import proofs.«409789_j50697793962364_3_alg».proof.Proof.AggDat2
import proofs.«409789_j50697793962364_3_alg».proof.Proof.AggPay
import proofs.«409789_j50697793962364_3_alg».proof.Proof.AggSum
import Idealize.ShloMosaic.Lib.Pipeline.Value
import Idealize.ShloMosaic.Lib.ValueIdx
import Idealize.ShloMosaic.Lib.Tactic

noncomputable section

namespace Cert.KernelIdeal.Val2

open Cert.KernelIdeal Cert.KernelIdeal.Gen Cert.KernelIdeal.Fr2 Cert.Spec
open Idealize.ShloMosaic Idealize.ShloMosaic.TcCoe Idealize.ShloMosaic.ValueIdx Idealize.ShloMosaic.Tactic
open Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F] (c : Dev nD) (i : grid2.Coords)
  (arg2 : Memref sig .tc .vmem S10000x128 .bf16) (harg2 : arg2.IsWhole) (arg3 : Memref sig .tc .vmem S1x256 .i32) (harg3 : arg3.IsWhole)
  (arg4 : Memref sig .tc .vmem S1x256 .i32) (harg4 : arg4.IsWhole) (arg5 : Memref sig .tc .vmem S1x10000x128 .f32) (harg5 : arg5.IsWhole)
  (arg6 : Memref sig .tc .vmem S10000x128 .f32) (harg6 : arg6.IsWhole)
  (x0 : Vec F S10000x128 .bf16) (x1 x2 : Vec F S1x256 .i32) (xs : Vec F S10000x128 .f32)

theorem sout_BC_eq (hc0 : ¬condFirst i) :
    (∀ hc1, rdS (kernelRun_B c i arg2 harg2 arg3 harg3 arg4 harg4 arg5 harg5 arg6 harg6 hc0 hc1 x0 x1 x2 xs).2.1 = k2_pay2 x1 x2 x0 xs)
      ∧ ∀ hc1, rdS (kernelRun_C c i arg2 harg2 arg3 harg3 arg4 harg4 arg5 harg5 arg6 harg6 hc0 hc1 x0 x1 x2 xs).2.1 = k2_pay2 x1 x2 x0 xs := by
  refine ⟨fun hc1 => ?_, fun hc1 => ?_⟩ <;>
  · unfold rdS
    rw [View.read_writes_eq_canon _ _ _ (View.cover_of_tiledL _ S10000x128.size (by sl_kernel_rfl))]
    dsimp only [kernelRun_B, kernelRun_C]
    sl_unfold_words
    rw [View.canon_unit_zero hz2]
    simp only [View.readAt_eq_ld, harg2.read_unread, harg3.read_unread, harg4.read_unread, harg6.read_unread,
      View.ld_unit_zero (S := S10000x128) hz2, View.ld_unit_zero (S := S1x256) hz2]

theorem out_C_3_eq (hc0 : ¬condFirst i) (hc1 : condLast i) :
    rdO (kernelRun_C c i arg2 harg2 arg3 harg3 arg4 harg4 arg5 harg5 arg6 harg6 hc0 hc1 x0 x1 x2 xs).1 = k2_pay3 (k2_pay2 x1 x2 x0 xs) := by
  unfold rdO
  rw [View.read_writes_eq_canon _ _ _ (View.cover_of_tiledL _ S1x10000x128.size (by sl_kernel_rfl))]
  unfold kernelRun_C
  dsimp only
  sl_unfold_words
  rw [View.canon_unit_zero hz3]
  simp only [View.readCov_unit_zero (S := S10000x128) _ hz2, View.readAt_eq_ld, harg2.read_unread, harg3.read_unread,
    harg4.read_unread, harg6.read_unread, View.ld_unit_zero (S := S10000x128) hz2, View.ld_unit_zero (S := S1x256) hz2]

theorem sout_A_eq (hc0 : condFirst i) (hc1 : ¬condLast i) :
    rdS (kernelRun_A c i arg2 harg2 arg3 harg3 arg4 harg4 arg5 harg5 arg6 harg6 hc0 hc1 x0 x1 x2).2.1 = k2_pay2 x1 x2 x0 (k2_pay1 (F := F)) := by
  unfold rdS
  rw [View.read_writes_eq_canon _ _ _ (View.cover_of_tiledL _ S10000x128.size (by sl_kernel_rfl))]
  unfold kernelRun_A
  dsimp only
  sl_unfold_words
  rw [View.canon_cons_unit_zero (S := S10000x128) hz2, View.readCov_unit_zero (S := S10000x128) _ hz2]
  simp only [View.readAt_eq_ld, harg2.read_unread, harg3.read_unread, harg4.read_unread,
    View.ld_unit_zero (S := S10000x128) hz2, View.ld_unit_zero (S := S1x256) hz2]

end Pieces

section Arrays

variable (V : (c : Dev nD) → (b : Ref sig .tc) → Buf (Elt Ideal) ((c : Thread nD τ).loc b))

abbrev Fm (c : Dev nD) : S10000x128.Idx → EReal := V c main_v11
abbrev Sr (c : Dev nD) : S1x640000.Idx → BitVec 32 := V c main_v3
abbrev Ds (c : Dev nD) : S1x640000.Idx → BitVec 32 := V c main_v7

abbrev FmM (c : Dev nD) : Mat 10000 128 := fun r j => Fm V c (ix2 r j)
abbrev SrF (c : Dev nD) : Fin 640000 → BitVec 32 := fun e => Sr V c (ix2 0 e)
abbrev DsF (c : Dev nD) : Fin 640000 → BitVec 32 := fun e => Ds V c (ix2 0 e)
abbrev term (c : Dev nD) := Cert.Spec.term (FmM V c) (SrF V c) (DsF V c)
abbrev acc (c : Dev nD) := Cert.Spec.acc (FmM V c) (SrF V c) (DsF V c)

abbrev fblk (c : Dev nD) (t : Fin cfg2.N) : Vec Ideal S10000x128 .bf16 := iblk V c 0 t
abbrev sblk (c : Dev nD) (t : Fin cfg2.N) : Vec Ideal S1x256 .i32 := iblk V c 1 t
abbrev dblk (c : Dev nD) (t : Fin cfg2.N) : Vec Ideal S1x256 .i32 := iblk V c 2 t

theorem idx_facts : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_3.index t (0 : Fin 3) = t.val / 1250 ∧ win2_3.index t (1 : Fin 3) = 0 ∧ win2_3.index t (2 : Fin 3) = 0 :=
  (by decide +kernel : ∀ t : Fin grid2.N, _)

theorem fblk_apply (c : Dev nD) (t : Fin cfg2.N) (r : Fin 10000) (j : Fin 128) :
    fblk V c t (ix2 r j) = Fm V c (ix2 r j) := by
  obtain ⟨e0, e1, -⟩ := idx_facts t
  show Fm V c (((cfg2.win 0).blk t).view.emb (ix2 r j)) = Fm V c (ix2 r j)
  refine congrArg (Fm V c) (funext fun a => Fin.ext ?_)
  match a with
  | ⟨0, _⟩ => show win2_0.index t (0 : Fin 2) * 10000 + 1 * r.val = r.val; omega
  | ⟨1, _⟩ => show win2_0.index t (1 : Fin 2) * 128 + 1 * j.val = j.val; omega

theorem sblk_apply (c : Dev nD) (t : Fin cfg2.N) (i : Fin 256) :
    sblk V c t (ix2 0 i) = Sr V c (ix2 0 (colN t.val i)) := by
  obtain ⟨-, -, e0, e1, -⟩ := idx_facts t
  have hN : t.val < 2500 := lt_of_lt_of_eq t.isLt (show cfg2.N = 2500 from N_2)
  show Sr V c (((cfg2.win 1).blk t).view.emb (ix2 0 i)) = Sr V c (ix2 0 (colN t.val i))
  refine congrArg (Sr V c) (funext fun a => Fin.ext ?_)
  match a with
  | ⟨0, _⟩ => show win2_1.index t (0 : Fin 2) * 1 + 1 * 0 = 0; omega
  | ⟨1, _⟩ => show win2_1.index t (1 : Fin 2) * 256 + 1 * i.val = (256 * t.val + i.val) % 640000; have := i.isLt; omega

theorem dblk_apply (c : Dev nD) (t : Fin cfg2.N) (i : Fin 256) :
    dblk V c t (ix2 0 i) = Ds V c (ix2 0 (colN t.val i)) := by
  obtain ⟨-, -, -, -, e0, e1, -⟩ := idx_facts t
  have hN : t.val < 2500 := lt_of_lt_of_eq t.isLt (show cfg2.N = 2500 from N_2)
  show Ds V c (((cfg2.win 2).blk t).view.emb (ix2 0 i)) = Ds V c (ix2 0 (colN t.val i))
  refine congrArg (Ds V c) (funext fun a => Fin.ext ?_)
  match a with
  | ⟨0, _⟩ => show win2_2.index t (0 : Fin 2) * 1 + 1 * 0 = 0; omega
  | ⟨1, _⟩ => show win2_2.index t (1 : Fin 2) * 256 + 1 * i.val = (256 * t.val + i.val) % 640000; have := i.isLt; omega

end Arrays

section Sum

variable (V : (c : Dev nD) → (b : Ref sig .tc) → Buf (Elt Ideal) ((c : Thread nD τ).loc b))

theorem pay2_at (c : Dev nD) (t : Fin cfg2.N) (xs : Vec Ideal S10000x128 .f32) (k : Fin 10000) (j : Fin 128) :
    k2_pay2 (F := Ideal) (sblk V c t) (dblk V c t) (fblk V c t) xs (ix2 k j) = xs (ix2 k j) + term V c k j t.val := by
  refine (AggPay.pay2_apply' (sblk V c t) (dblk V c t) (fblk V c t) xs k j).trans ?_
  refine congrArg (xs (ix2 k j) + ·) ?_
  unfold term Cert.Spec.term
  refine Finset.sum_congr rfl fun i _ => ?_
  rw [dblk_apply V c t i, sblk_apply V c t i]
  refine congrArg (_ * ·) (Finset.sum_congr rfl fun r _ => ?_)
  rw [fblk_apply V c t r j]

-- a first trip clears the scratch and adds its own contribution
theorem scratch_first (c : Dev nD) (k : Fin 10000) (j : Fin 128) (t : Fin cfg2.N) (h0 : t.val % 1250 = 0) :
    (outsAt V c t.val t.isLt).2 (ix2 k j) = acc V c k j t.val := by
  have h1 : ¬t.val % 1250 = 1249 := by omega
  rw [outsAt_A V c t h0 h1]
  dsimp only [rd]
  refine (congrFun (sout_A_eq ..) (ix2 k j)).trans ((pay2_at V c t (k2_pay1 (F := Ideal)) k j).trans ?_)
  rw [AggPay.pay1_apply', zero_add]
  exact (acc_first _ _ _ k j _ h0).symm

-- any other trip adds its contribution to what the trip before left
theorem scratch_next (c : Dev nD) (k : Fin 10000) (j : Fin 128) (t : Fin cfg2.N) (h0 : ¬t.val % 1250 = 0)
    (ih : prev V c t (ix2 k j) = acc V c k j (t.val - 1)) : (outsAt V c t.val t.isLt).2 (ix2 k j) = acc V c k j t.val := by
  have e : k2_pay2 (F := Ideal) (sblk V c t) (dblk V c t) (fblk V c t) (prev V c t) (ix2 k j) = acc V c k j t.val := by
    rw [pay2_at V c t (prev V c t) k j, ih]
    exact acc_pred _ _ _ k j t.val h0
  by_cases h1 : t.val % 1250 = 1249
  · rw [outsAt_C V c t h0 h1]; dsimp only [rd]
    exact (congrFun ((sout_BC_eq ..).2 _) (ix2 k j)).trans e
  · rw [outsAt_B V c t h0 h1]; dsimp only [rd]
    exact (congrFun ((sout_BC_eq ..).1 _) (ix2 k j)).trans e

theorem scratch_eq (c : Dev nD) (k : Fin 10000) (j : Fin 128) : ∀ (n : ℕ) (hn : n < cfg2.N),
    (outsAt V c n hn).2 (ix2 k j) = acc V c k j n := by
  intro n
  induction n with
  | zero => exact fun hn => scratch_first V c k j ⟨0, hn⟩ (Nat.zero_mod _)
  | succ n ih =>
    intro hn
    by_cases h0 : (n + 1) % 1250 = 0
    · exact scratch_first V c k j ⟨n + 1, hn⟩ h0
    · exact scratch_next V c k j ⟨n + 1, hn⟩ h0 (ih _)

theorem out_last (c : Dev nD) (t : Fin cfg2.N) (h1 : t.val % 1250 = 1249) (k : Fin 10000) (j : Fin 128) :
    (outsAt V c t.val t.isLt).1 (ix3 0 k j) = acc V c k j t.val := by
  have h0 : ¬t.val % 1250 = 0 := by omega
  rw [outsAt_C V c t h0 h1]
  dsimp only [rd]
  refine (congrFun (out_C_3_eq ..) (ix3 0 k j)).trans ((AggPay.pay3_apply' _ k j).trans ((pay2_at V c t (prev V c t) k j).trans ?_))
  exact (congrArg (· + term V c k j t.val) (scratch_eq V c k j (t.val - 1) _)).trans (acc_pred _ _ _ k j t.val h0)

def G (c : Dev nD) : S2x10000x128.Idx → EReal := fun y => coreSum (FmM V c) (SrF V c) (DsF V c) (y 0) (y 1) (y 2)

theorem out_block (c : Dev nD) (t : Fin cfg2.N) (h1 : t.val % 1250 = 1249) (y : S1x10000x128.Idx) :
    (outsAt V c t.val t.isLt).1 y = G V c (((cfg2.win 3).blk t).view.emb y) := by
  have hy0 : @Eq (Fin 1) (y 0) 0 := Fin.ext (by have h : (y 0).val < 1 := (y 0).isLt; show (y 0).val = 0; omega)
  obtain ⟨k, j, rfl⟩ : ∃ (k : Fin 10000) (j : Fin 128), y = ix3 0 k j :=
    ⟨y 1, y 2, (eq_ix3 y).trans (congrArg (fun a : Fin 1 => ix3 a (y 1) (y 2)) hy0)⟩
  rw [out_last V c t h1 k j]
  obtain ⟨-, -, -, -, -, -, e0, e1, e2⟩ := idx_facts t
  have hN : t.val < 2500 := lt_of_lt_of_eq t.isLt (show cfg2.N = 2500 from N_2)
  have he : ((cfg2.win 3).blk t).view.emb (ix3 0 k j) = ix3 (⟨t.val / 1250, by omega⟩ : Fin 2) k j := funext fun a => Fin.ext (by
    match a with
    | ⟨0, _⟩ => show win2_3.index t (0 : Fin 3) * 1 + 1 * 0 = t.val / 1250; omega
    | ⟨1, _⟩ => show win2_3.index t (1 : Fin 3) * 10000 + 1 * k.val = k.val; omega
    | ⟨2, _⟩ => show win2_3.index t (2 : Fin 3) * 128 + 1 * j.val = j.val; omega)
  refine Eq.trans ?_ (congrArg (G V c) he).symm
  exact acc_last _ _ _ k j t.val h1 _

theorem flushed_eq (c : Dev nD) (t : Fin cfg2.N) (hf : (cfg2.win 3).flush t = true) :
    (dat V c).flushed 3 t = ((cfg2.win 3).blk t).view.read (Elt Ideal) (G V c) := by
  have h1 : t.val % 1250 = 1249 := (flush2_3 t).mp hf
  show (cfg2.win 3).cut (grid2.coords t) ((dat V c).after 3 t) = _
  rw [after_3]
  funext y
  exact out_block V c t h1 y

theorem mem_blk3 (t : Fin cfg2.N) (i : S2x10000x128.Idx) :
    i ∈ ((cfg2.win 3).blk t).view.set ↔ ∀ a : Fin 3, win2_3.index t a * S1x10000x128.size a ≤ (i a).val ∧ (i a).val < win2_3.index t a * S1x10000x128.size a + S1x10000x128.size a := by
  show i ∈ ((View.whole main_v12).slice (win2_3.rect t)).set ↔ _
  rw [View.set_slice_whole, Rect.mem_set_unit]
  exact Iff.rfl

theorem cover3 (i : S2x10000x128.Idx) :
    ∃ t : Fin cfg2.N, (cfg2.win 3).flush t = true ∧ i ∈ ((cfg2.win 3).blk t).view.set := by
  have hi0 : (i 0).val < 2 := (i 0).isLt
  have hi1 : (i 1).val < 10000 := (i 1).isLt
  have hi2 : (i 2).val < 128 := (i 2).isLt
  have hN : cfg2.N = 2500 := N_2
  obtain ⟨t, ht⟩ : ∃ t : Fin cfg2.N, t.val = 1250 * (i 0).val + 1249 := ⟨⟨_, by omega⟩, rfl⟩
  obtain ⟨-, -, -, -, -, -, e0, e1, e2⟩ := idx_facts t
  refine ⟨t, (flush2_3 t).mpr (by omega), (mem_blk3 t i).mpr fun a => ?_⟩
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 10000 ≤ (i 1).val ∧ (i 1).val < win2_3.index t (1 : Fin 3) * 10000 + 10000; omega
  | ⟨2, _⟩ => show win2_3.index t (2 : Fin 3) * 128 ≤ (i 2).val ∧ (i 2).val < win2_3.index t (2 : Fin 3) * 128 + 128; omega

theorem arr_eq (c : Dev nD) : (dat V c).arrAt 3 cfg2.N = G V c :=
  (dat V c).arrAt_eq_of_cover 3 (G V c) (flushed_eq V c) cover3

theorem arr_out (c : Dev nD) (cc : Fin 2) (k : Fin 10000) (j : Fin 128) :
    ((dat V c).arrAt 3 cfg2.N : S2x10000x128.Idx → EReal) (ix3 cc k j) = coreSum (FmM V c) (SrF V c) (DsF V c) cc k j := by
  rw [arr_eq V c]
  rfl

end Sum

end Cert.KernelIdeal.Val2

end
-- ==== Proof.HostGlue.lean ====
import proofs.«409789_j50697793962364_3_alg».proof.Proof.Gen.KernelIdeal.Regions
import Idealize.ShloMosaic.Lib.StableHlo.Run
import Idealize.ShloMosaic.Lib.ValueIdx
import Idealize.ShloMosaic.Lib.ValueLayout

set_option maxRecDepth 16384

noncomputable section

namespace Cert.KernelIdeal.HostGlue

open Cert.KernelIdeal Cert.KernelIdeal.Gen
open Idealize.ShloMosaic Idealize.ShloMosaic.TcCoe Idealize.ShloMosaic.ValueIdx
open Idealize.SL Idealize.SL.Sem

theorem clip_id (w : BitVec 32) (h : 0 ≤ w.toInt ∧ w.toInt < 10000) :
    IntOp.minsi 9999#32 (IntOp.maxsi 0#32 w) = w := by
  have e0 : (0#32 : BitVec 32).toInt = 0 := by decide
  have e1 : (9999#32 : BitVec 32).toInt = 9999 := by decide
  unfold IntOp.minsi IntOp.maxsi
  simp only [BitVec.slt, decide_eq_true_eq]
  split_ifs <;> first | rfl | (apply BitVec.eq_of_toInt_eq; omega) | (exfalso; omega)

def clipRow (o : Nat) (hs : S2x640000.Slices ![o, 0] S1x640000) (x : S2x640000.Idx → BitVec 32) : S1x640000.Idx → BitVec 32 :=
  shapeCast S1x640000
    (minsi (broadcastInDim S640000 ![] Facts₀.bcast_S_S640000 (constantI S_ 32 9999#32))
      (maxsi (broadcastInDim S640000 ![] Facts₀.bcast_S_S640000 (constantI S_ 32 0#32))
        (shapeCast S640000 (extractStridedSlice S1x640000 ![o, 0] x hs) Facts₀.shapeCasts_S1x640000_S640000)))
    Facts₀.shapeCasts_S640000_S1x640000

theorem clipRow_eval (o : Nat) (hs : S2x640000.Slices ![o, 0] S1x640000) (x : S2x640000.Idx → BitVec 32)
    (k : Fin 2) (hk : k.val = o) (e : Fin 640000) :
    clipRow o hs x (ix2 0 e) = IntOp.minsi 9999#32 (IntOp.maxsi 0#32 (x (ix2 k e))) := by
  unfold clipRow
  refine (shapeCast_a_1a_apply _ _ 0 e).trans ?_
  show IntOp.minsi 9999#32 (IntOp.maxsi 0#32
    (shapeCast S640000 (extractStridedSlice S1x640000 ![o, 0] x hs) Facts₀.shapeCasts_S1x640000_S640000 (ix1 e))) = _
  rw [shapeCast_1a_a_apply, slice2_axis0_apply o x hs 0 e k (by rw [hk]; rfl)]

theorem clipRow_apply (o : Nat) (hs : S2x640000.Slices ![o, 0] S1x640000) (x : S2x640000.Idx → BitVec 32)
    (k : Fin 2) (hk : k.val = o) (e : Fin 640000) (h : 0 ≤ (x (ix2 k e)).toInt ∧ (x (ix2 k e)).toInt < 10000) :
    clipRow o hs x (ix2 0 e) = x (ix2 k e) :=
  (clipRow_eval o hs x k hk e).trans (clip_id _ h)

section generic
variable {F : FTy → Type} [FloatOps F]
variable (m : (ℓ : Loc nD τ sig) → Buf (Elt F) ℓ)

theorem V5_v3 (c : Dev nD) :
    (V5 m c main_v3 : S1x640000.Idx → BitVec 32)
      = clipRow 0 Facts₀.slices_S2x640000_S1x640000_0_0 (m ((c.tc : Thread nD τ).loc main_arg1)) := by
  show StableHlo.after hostOps0_4 (V4 m c) (Proc.devRef .tc main_v3) = _
  after_results
  rfl

theorem V5_v7 (c : Dev nD) :
    (V5 m c main_v7 : S1x640000.Idx → BitVec 32)
      = clipRow 1 Facts₀.slices_S2x640000_S1x640000_1_0 (m ((c.tc : Thread nD τ).loc main_arg1)) := by
  show StableHlo.after hostOps0_4 (V4 m c) (Proc.devRef .tc main_v7) = _
  after_results
  rfl

theorem V5_v8 (c : Dev nD) :
    (V5 m c main_v8 : S10000x128.Idx → F .bf16)
      = truncf .bf16 (m ((c.tc : Thread nD τ).loc main_arg0) : S10000x128.Idx → F .f32) Facts₀.bitsLt_bf16_f32 := by
  show StableHlo.after hostOps0_4 (V4 m c) (Proc.devRef .tc main_v8) = _
  after_results

theorem v3_apply (c : Dev nD) (e : Fin 640000)
    (h : 0 ≤ ((m ((c.tc : Thread nD τ).loc main_arg1) : S2x640000.Idx → BitVec 32) (ix2 0 e)).toInt
      ∧ ((m ((c.tc : Thread nD τ).loc main_arg1) : S2x640000.Idx → BitVec 32) (ix2 0 e)).toInt < 10000) :
    (V5 m c main_v3 : S1x640000.Idx → BitVec 32) (ix2 0 e)
      = (m ((c.tc : Thread nD τ).loc main_arg1) : S2x640000.Idx → BitVec 32) (ix2 0 e) :=
  (congrFun (V5_v3 m c) (ix2 0 e)).trans (clipRow_apply 0 _ _ 0 rfl e h)

theorem v7_apply (c : Dev nD) (e : Fin 640000)
    (h : 0 ≤ ((m ((c.tc : Thread nD τ).loc main_arg1) : S2x640000.Idx → BitVec 32) (ix2 1 e)).toInt
      ∧ ((m ((c.tc : Thread nD τ).loc main_arg1) : S2x640000.Idx → BitVec 32) (ix2 1 e)).toInt < 10000) :
    (V5 m c main_v7 : S1x640000.Idx → BitVec 32) (ix2 0 e)
      = (m ((c.tc : Thread nD τ).loc main_arg1) : S2x640000.Idx → BitVec 32) (ix2 1 e) :=
  (congrFun (V5_v7 m c) (ix2 0 e)).trans (clipRow_apply 1 _ _ 1 rfl e h)

variable (outs : Outs (F := F))

theorem V8_v11 (c : Dev nD) :
    (V8 m outs c main_v11 : S10000x128.Idx → F .bf16)
      = truncf .bf16 (V7 m outs c main_v10 : S10000x128.Idx → F .f32) Facts₀.bitsLt_bf16_f32 := by
  show StableHlo.after hostOps2 (V7 m outs c) (Proc.devRef .tc main_v11) = _
  after_results

end generic

section ideal
variable (m : (ℓ : Loc nD τ sig) → Buf (Elt Ideal) ℓ) (outs : Outs (F := Ideal))

theorem v8_apply (c : Dev nD) (k : Fin 10000) (j : Fin 128) :
    (V5 (F := Ideal) m c main_v8 : S10000x128.Idx → EReal) (ix2 k j)
      = (m ((c.tc : Thread nD τ).loc main_arg0) : S10000x128.Idx → EReal) (ix2 k j) :=
  (congrFun (V5_v8 (F := Ideal) m c) (ix2 k j)).trans (truncf_apply _ _ _)

theorem v11_apply (c : Dev nD) (k : Fin 10000) (j : Fin 128) :
    (V8 (F := Ideal) m outs c main_v11 : S10000x128.Idx → EReal) (ix2 k j)
      = (V7 (F := Ideal) m outs c main_v10 : S10000x128.Idx → EReal) (ix2 k j) :=
  (congrFun (V8_v11 (F := Ideal) m outs c) (ix2 k j)).trans (truncf_apply _ _ _)

end ideal

end Cert.KernelIdeal.HostGlue

end
-- ==== Proof.LibKeepdims.lean ====
import Idealize.ShloMosaic.Lib.Pipeline.Value
import Idealize.ShloMosaic.Lib.ValueIdx

noncomputable section

namespace Cert.Lib

open Idealize.ShloMosaic Idealize.ShloMosaic.ValueIdx

variable {α : Type}

/-- Giving a vector a trailing axis of length one changes no entry. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Spreading a column over `b` columns repeats each row's entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.CombPay.lean ====
import proofs.«409789_j50697793962364_3_alg».proof.Proof.Gen.KernelIdeal.Skeleton
import proofs.«409789_j50697793962364_3_alg».proof.Proof.LibPlainMatmul
import proofs.«409789_j50697793962364_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CombPay

open Idealize.ShloMosaic Idealize.ShloMosaic.ValueIdx Cert.KernelIdeal Cert.KernelIdeal.Gen

theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

-- entry (p, q) of the affine image of the rows f + (agg[0] + agg[1])
def pre (v0 v2 : Vec Ideal S1x1000x128 .f32) (v5 : Vec Ideal S1000x128 .f32) (v8 : Vec Ideal S128x128 .f32)
    (v11 : Vec Ideal S128 .f32) (p : Fin 1000) (q : Fin 128) : EReal :=
  (∑ r : Fin 128, (v5 (ix2 p r) + (v0 (ix3 (0 : Fin 1) p r) + v2 (ix3 (0 : Fin 1) p r))) * v8 (ix2 r q)) + v11 (ix1 q)

def reluRow (r : Fin 128 → EReal) (q : Fin 128) : EReal := max (r q) 0

def lsmRow (r : Fin 128 → EReal) (q : Fin 128) : EReal :=
  (r q - Finset.univ.sup r) - Ideal.log (∑ s : Fin 128, Ideal.exp (r s - Finset.univ.sup r))

def lin (v0 v2 : Vec Ideal S1x1000x128 .f32) (v5 : Vec Ideal S1000x128 .f32) (v8 : Vec Ideal S128x128 .f32)
    (v11 : Vec Ideal S128 .f32) : FVec Ideal S1000x128 .f32 :=
  addf (matmul dot_S1000x128_S128x128_S1000x128_1_0_0_1_n_n none
      (truncf .bf16 (addf (F := Ideal) (φ := .f32) v5 (addf (shapeCast S1000x128 v0 shapeCasts_S1x1000x128_S1000x128)
        (shapeCast S1000x128 v2 shapeCasts_S1x1000x128_S1000x128))) bitsLt_bf16_f32)
      (truncf .bf16 (v8 : FVec Ideal S128x128 .f32) bitsLt_bf16_f32) (constant (F := Ideal) S1000x128 .f32 0x00000000#32))
    (broadcastTo S1000x128 (shapeCast S1x128 (v11 : FVec Ideal S128 .f32) shapeCasts_S128_S1x128) broadcasts_S1x128_S1000x128)

-- on the extended reals narrowing is the identity, and a product added to zero is the plain sum of products
theorem lin_apply (v0 v2 : Vec Ideal S1x1000x128 .f32) (v5 : Vec Ideal S1000x128 .f32) (v8 : Vec Ideal S128x128 .f32)
    (v11 : Vec Ideal S128 .f32) (p : Fin 1000) (q : Fin 128) :
    lin v0 v2 v5 v8 v11 (ix2 p q) = pre v0 v2 v5 v8 v11 p q := by
  unfold lin pre
  rw [addf_apply, broadcastTo_1b_ab_apply, shapeCast_a_1a_apply,
    show dot_S1000x128_S128x128_S1000x128_1_0_0_1_n_n = DotDims.plain 1000 128 128 from rfl]
  refine congrArg (· + v11 (ix1 q)) ((Cert.Lib.matmul_plain_zero_apply 1000 128 128 none _ _ (ix2 p q)).trans
    (Finset.sum_congr rfl fun r _ => congrArg (· * v8 (ix2 r q)) ?_))
  show addf (F := Ideal) (φ := .f32) v5 _ (ix2 p r) = _
  rw [addf_apply, addf_apply, shapeCast_1ab_ab_apply, shapeCast_1ab_ab_apply]

theorem pay1_apply (v0 v2 : Vec Ideal S1x1000x128 .f32) (v5 : Vec Ideal S1000x128 .f32) (v8 : Vec Ideal S128x128 .f32)
    (v11 : Vec Ideal S128 .f32) (p : Fin 1000) (q : Fin 128) :
    k1_pay1 (F := Ideal) v0 v2 v5 v8 v11 (ix2 p q) = reluRow (pre v0 v2 v5 v8 v11 p) q := by
  show max (lin v0 v2 v5 v8 v11 (ix2 p q)) (Ideal.ofBits .f32 0x00000000#32) = _
  rw [lin_apply, Ideal.ofBits_zero_f32]
  rfl

theorem rowSum_apply (y : FVec Ideal S1000x128 .f32) (h : S1000x128.Reduces [1] S1000) (hφ : FKind.Formats .f32)
    (hacc : (0x00000000#32 : BitVec 32) = FKind.add.neutral .f32 hφ) (p : Fin 1000) :
    multiReduction .add [1] S1000 y 0x00000000#32 h hφ hacc (ix1 p) = ∑ s : Fin 128, y (ix2 p s) :=
  (Ideal.multiReduction_add_single y 0x00000000#32 h hφ hacc (ix1 p)).trans
    (Finset.sum_congr rfl fun k _ => congrArg y (lift_row h p k))

-- the fold of max from the bottom element over a row is the supremum over its columns
theorem rowMax_apply (y : FVec Ideal S1000x128 .f32) (h : S1000x128.Reduces [1] S1000) (hφ : FKind.Formats .f32)
    (hacc : (0xFF800000#32 : BitVec 32) = FKind.maximumf.neutral .f32 hφ) (p : Fin 1000) :
    multiReduction .maximumf [1] S1000 y 0xFF800000#32 h hφ hacc (ix1 p) = Finset.univ.sup fun s : Fin 128 => y (ix2 p s) := by
  refine (Ideal.multiReduction_maximumf_single y 0xFF800000#32 h hφ hacc (ix1 p)).trans ?_
  rw [show (y ∘ h.lift (ix1 p)) = fun k : Fin 128 => y (ix2 p k) from funext fun k => congrArg y (lift_row h p k)]
  show Finset.fold max (Ideal.ofBits .f32 0xFF800000#32) (fun k : Fin 128 => y (ix2 p k)) Finset.univ = _
  rw [show Ideal.ofBits .f32 0xFF800000#32 = (⊥ : EReal) by simp [Ideal.ofBits, Ideal.ieee]]
  rfl

def centred (y : FVec Ideal S1000x128 .f32) : FVec Ideal S1000x128 .f32 :=
  subf y (broadcastTo S1000x128 (shapeCast S1000x1
    (multiReduction .maximumf [1] S1000 y 0xFF800000#32 reduces_S1000x128_S1000 (.inl rfl) rfl)
    shapeCasts_S1000_S1000x1) broadcasts_S1000x1_S1000x128)

theorem centred_apply (y : FVec Ideal S1000x128 .f32) (p : Fin 1000) (q : Fin 128) :
    centred y (ix2 p q) = y (ix2 p q) - Finset.univ.sup fun s : Fin 128 => y (ix2 p s) := by
  unfold centred
  rw [subf_apply, Cert.Lib.broadcastTo_a1_ab_apply, Cert.Lib.shapeCast_a_a1_apply]
  exact congrArg (y (ix2 p q) - ·) (rowMax_apply y _ _ _ p)

def lse (c : FVec Ideal S1000x128 .f32) : FVec Ideal S1000x128 .f32 :=
  subf c (broadcastTo S1000x128 (log (shapeCast S1000x1
    (multiReduction .add [1] S1000 (exp c) 0x00000000#32 reduces_S1000x128_S1000 (.inl rfl) rfl)
    shapeCasts_S1000_S1000x1)) broadcasts_S1000x1_S1000x128)

theorem lse_apply (c : FVec Ideal S1000x128 .f32) (p : Fin 1000) (q : Fin 128) :
    lse c (ix2 p q) = c (ix2 p q) - Ideal.log (∑ s : Fin 128, Ideal.exp (c (ix2 p s))) := by
  unfold lse
  rw [subf_apply, Cert.Lib.broadcastTo_a1_ab_apply]
  show c (ix2 p q) - Ideal.log (shapeCast S1000x1 _ shapeCasts_S1000_S1000x1 (ix2 p (0 : Fin 1))) = _
  rw [Cert.Lib.shapeCast_a_a1_apply]
  exact congrArg (fun t => c (ix2 p q) - Ideal.log t) (rowSum_apply (exp c) _ _ _ p)

-- a cast between equal shapes changes nothing
theorem lin3_eq (v0 v2 : Vec Ideal S1x1000x128 .f32) (v5 : Vec Ideal S1000x128 .f32) (v9 : Vec Ideal S128x128 .f32)
    (v12 : Vec Ideal S128 .f32) :
    addf (matmul dot_S1000x128_S128x128_S1000x128_1_0_0_1_n_n none
        (truncf .bf16 (addf (F := Ideal) (φ := .f32) (shapeCast S1000x128 v5 shapeCasts_S1000x128_S1000x128)
          (addf (shapeCast S1000x128 v0 shapeCasts_S1x1000x128_S1000x128)
            (shapeCast S1000x128 v2 shapeCasts_S1x1000x128_S1000x128))) bitsLt_bf16_f32)
        (truncf .bf16 (v9 : FVec Ideal S128x128 .f32) bitsLt_bf16_f32) (constant (F := Ideal) S1000x128 .f32 0x00000000#32))
      (broadcastTo S1000x128 (shapeCast S1x128 (v12 : FVec Ideal S128 .f32) shapeCasts_S128_S1x128) broadcasts_S1x128_S1000x128)
      = lin v0 v2 v5 v9 v12 := by
  unfold lin
  rw [shapeCast_self]

theorem pay3_apply (v0 v2 : Vec Ideal S1x1000x128 .f32) (v5 : Vec Ideal S1000x128 .f32) (v9 : Vec Ideal S128x128 .f32)
    (v12 : Vec Ideal S128 .f32) (p : Fin 1000) (q : Fin 128) :
    k3_pay1 (F := Ideal) v0 v2 v5 v9 v12 (ix2 p q) = lsmRow (pre v0 v2 v5 v9 v12 p) q := by
  have h3 : k3_pay1 (F := Ideal) v0 v2 v5 v9 v12 = lse (centred (lin v0 v2 v5 v9 v12)) := by
    rw [← lin3_eq]; rfl
  rw [h3, lse_apply]
  simp only [centred_apply, lin_apply]
  rfl

end Cert.KernelIdeal.CombPay

end
-- ==== Proof.Comb1Value.lean ====
import proofs.«409789_j50697793962364_3_alg».proof.Proof.Comb1
import proofs.«409789_j50697793962364_3_alg».proof.Proof.CombPay
import proofs.«409789_j50697793962364_3_alg».proof.Proof.Spec
import Idealize.ShloMosaic.Lib.Pipeline.Value
import Idealize.ShloMosaic.Lib.ValueIdx

noncomputable section

namespace Cert.KernelIdeal.CombVal

open Cert.KernelIdeal.Gen Cert.KernelIdeal.Comb Idealize.ShloMosaic Idealize.ShloMosaic.ValueIdx

def layer (φ : (Fin 128 → EReal) → Fin 128 → EReal) (X : S10000x128.Idx → EReal) (A : S2x10000x128.Idx → EReal) (W : S128x128.Idx → EReal)
    (B : S128.Idx → EReal) : S10000x128.Idx → EReal := fun i =>
  φ (Cert.Spec.lin (fun k r => X (ix2 k r) + (A (ix3 0 k r) + A (ix3 1 k r))) (fun r q => W (ix2 r q)) (fun q => B (ix1 q)) (i 0)) (i 1)

theorem zeros2 : (![0, 0] : Fin 2 → Nat) = fun _ => 0 := funext fun a => by fin_cases a <;> rfl
theorem zeros1 : (![0] : Fin 1 → Nat) = fun _ => 0 := funext fun a => by fin_cases a <;> rfl

theorem slab_idx (a : Fin 2) (h) (p : Fin 1000) (r : Fin 128) :
    (Rect.unit (s := S2x1000x128) ![a.val, 0, 0] S1x1000x128.size h).idx (ix3 (0 : Fin 1) p r) = ix3 a p r := by
  funext b; apply Fin.ext
  match b with
  | ⟨0, _⟩ => rfl
  | ⟨1, _⟩ => show 0 + 1 * p.val = p.val; omega
  | ⟨2, _⟩ => show 0 + 1 * r.val = r.val; omega

-- a payload that applies a row map φ to the affine image gives, at a row that is row k of the arrays, φ of the layer's affine row k
theorem tile_at {pay : Pay Ideal} {φ : (Fin 128 → EReal) → Fin 128 → EReal}
    (hpay : ∀ v0 v2 v5 v8 v11 p q, pay v0 v2 v5 v8 v11 (ix2 p q) = φ (CombPay.pre v0 v2 v5 v8 v11 p) q)
    (x0 : Vec Ideal S1000x128 .f32) (x1 : Vec Ideal S2x1000x128 .f32) (x2 : Vec Ideal S128x128 .f32) (x3 : Vec Ideal S128 .f32)
    (X : S10000x128.Idx → EReal) (A : S2x10000x128.Idx → EReal) (W : S128x128.Idx → EReal) (B : S128.Idx → EReal)
    (p : Fin 1000) (q : Fin 128) (k : Fin 10000) (h0 : ∀ r : Fin 128, x0 (ix2 p r) = X (ix2 k r))
    (h1 : ∀ (a : Fin 2) (r : Fin 128), x1 (ix3 a p r) = A (ix3 a k r)) (h2 : x2 = W) (h3 : x3 = B) :
    outOf pay x0 x1 x2 x3 (ix2 p q) = layer φ X A W B (ix2 k q) := by
  unfold outOf
  rw [View.canon_unit_zero zeros2, hpay, View.ld_unit_zero (S := S1000x128) zeros2, View.ld_unit_zero (S := S128x128) zeros2,
    View.ld_unit_zero (S := S128) zeros1]
  refine congrArg (φ · q) (funext fun s => ?_)
  unfold CombPay.pre
  have e0 : ∀ r : Fin 128, View.ld x1 rA0 (ix3 (0 : Fin 1) p r) = A (ix3 0 k r) := fun r => (congrArg x1 (slab_idx 0 _ p r)).trans (h1 0 r)
  have e1 : ∀ r : Fin 128, View.ld x1 rA1 (ix3 (0 : Fin 1) p r) = A (ix3 1 k r) := fun r => (congrArg x1 (slab_idx 1 _ p r)).trans (h1 1 r)
  simp only [e0, e1, h0, h2, h3]
  rfl

end Cert.KernelIdeal.CombVal

namespace Cert.KernelIdeal.Val1

open Cert.KernelIdeal.Gen Cert.KernelIdeal.Comb Cert.KernelIdeal.CombVal Cert.KernelIdeal.Fr1
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

abbrev X : S10000x128.Idx → EReal := V c main_arg0
abbrev A : S2x10000x128.Idx → EReal := V c main_v9
abbrev W : S128x128.Idx → EReal := V c main_arg2
abbrev B : S128.Idx → EReal := V c main_arg3

theorem idx_facts : ∀ t : Fin cfg1.N, win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

-- row p of the tile at point t is row 1000 t + p of the arrays; the weight and bias blocks are their arrays
theorem blks (t : Fin cfg1.N) (p : Fin 1000) (k : Fin 10000) (hk : k.val = 1000 * t.val + p.val) :
    (∀ r : Fin 128, (iblk V c 0 t : Vec Ideal S1000x128 .f32) (ix2 p r) = X V c (ix2 k r))
      ∧ (∀ (a : Fin 2) (r : Fin 128), (iblk V c 1 t : Vec Ideal S2x1000x128 .f32) (ix3 a p r) = A V c (ix3 a k r))
      ∧ (iblk V c 2 t : Vec Ideal S128x128 .f32) = W V c ∧ (iblk V c 3 t : Vec Ideal S128 .f32) = B V c := by
  obtain ⟨e0, e1, e2, e3, e4, e5, e6, e7, -⟩ := idx_facts t
  refine ⟨fun r => ?_, fun a r => ?_, funext fun y => ?_, funext fun y => ?_⟩ <;> unfold iblk <;> rw [View.read_apply]
  · refine congrArg (V c main_arg0) (funext fun b => Fin.ext ?_)
    match b with
    | ⟨0, _⟩ => show win1_0.index t (0 : Fin 2) * 1000 + 1 * p.val = k.val; omega
    | ⟨1, _⟩ => show win1_0.index t (1 : Fin 2) * 128 + 1 * r.val = r.val; omega
  · refine congrArg (V c main_v9) (funext fun b => Fin.ext ?_)
    match b with
    | ⟨0, _⟩ => show win1_1.index t (0 : Fin 3) * 2 + 1 * a.val = a.val; omega
    | ⟨1, _⟩ => show win1_1.index t (1 : Fin 3) * 1000 + 1 * p.val = k.val; omega
    | ⟨2, _⟩ => show win1_1.index t (2 : Fin 3) * 128 + 1 * r.val = r.val; omega
  · refine congrArg (V c main_arg2) (funext fun b => Fin.ext ?_)
    match b with
    | ⟨0, _⟩ => show win1_2.index t (0 : Fin 2) * 128 + 1 * (y 0).val = (y 0).val; omega
    | ⟨1, _⟩ => show win1_2.index t (1 : Fin 2) * 128 + 1 * (y 1).val = (y 1).val; omega
  · refine congrArg (V c main_arg3) (funext fun b => Fin.ext ?_)
    match b with
    | ⟨0, _⟩ => show win1_3.index t (0 : Fin 1) * 128 + 1 * (y 0).val = (y 0).val; omega

theorem flushed_eq (t : Fin cfg1.N) :
    (dat V c).flushed 4 t = ((cfg1.win 4).blk t).view.read (Elt Ideal) (layer CombPay.reluRow (X V c) (A V c) (W V c) (B V c)) := by
  show (cfg1.win 4).cut (grid1.coords t) ((dat V c).after 4 t) = _
  dsimp only [dat]
  funext j
  obtain ⟨p, q, rfl⟩ : ∃ (p : Fin 1000) (q : Fin 128), j = ix2 p q := ⟨j 0, j 1, eq_ix2 j⟩
  have hN : cfg1.N = 10 := N_1
  have ht := t.isLt
  obtain ⟨-, -, -, -, -, -, -, -, e8, e9⟩ := idx_facts t
  have hk : 1000 * t.val + p.val < 10000 := by omega
  obtain ⟨h0, h1, h2, h3⟩ := blks V c t p ⟨_, hk⟩ rfl
  rw [View.read_apply]
  show _ = layer CombPay.reluRow (X V c) (A V c) (W V c) (B V c) (((cfg1.win 4).blk t).view.emb (ix2 p q))
  refine (tile_at CombPay.pay1_apply _ _ _ _ _ _ _ _ p q ⟨_, hk⟩ h0 h1 h2 h3).trans (congrArg _ (funext fun b => Fin.ext ?_)).symm
  match b with
  | ⟨0, _⟩ => show win1_4.index t (0 : Fin 2) * 1000 + 1 * p.val = 1000 * t.val + p.val; omega
  | ⟨1, _⟩ => show win1_4.index t (1 : Fin 2) * 128 + 1 * q.val = q.val; omega

theorem cover (i : S10000x128.Idx) : ∃ t : Fin cfg1.N, (cfg1.win 4).flush t = true ∧ i ∈ ((cfg1.win 4).blk t).view.set := by
  have hN : cfg1.N = 10 := N_1
  have hi0 : (i 0).val < 10000 := (i 0).isLt
  have hi1 : (i 1).val < 128 := (i 1).isLt
  let t : Fin cfg1.N := ⟨(i 0).val / 1000, by omega⟩
  obtain ⟨-, -, -, -, -, -, -, -, e8, e9⟩ := idx_facts t
  have e8' : win1_4.index t (0 : Fin 2) = (i 0).val / 1000 := e8
  refine ⟨t, flush1_4 t, ?_⟩
  show i ∈ ((View.whole main_v10).slice (win1_4.rect t)).set
  rw [View.set_slice_whole, Rect.mem_set_unit]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 128 ≤ (i 1).val ∧ (i 1).val < win1_4.index t (1 : Fin 2) * 128 + 128; omega

theorem arr_out (k : Fin 10000) (q : Fin 128) :
    ((dat (F := Ideal) V c).arrAt 4 cfg1.N : S10000x128.Idx → EReal) (ix2 k q)
      = Cert.Spec.relu (Cert.Spec.lin (fun k r => X V c (ix2 k r) + (A V c (ix3 0 k r) + A V c (ix3 1 k r))) (fun r q => W V c (ix2 r q)) (fun q => B V c (ix1 q))) k q :=
  congrFun ((dat V c).arrAt_eq_of_cover 4 _ (fun t _ => flushed_eq V c t) (cover)) (ix2 k q)

end Cert.KernelIdeal.Val1

end
-- ==== Proof.Comb3Value.lean ====
import proofs.«409789_j50697793962364_3_alg».proof.Proof.Comb3
import proofs.«409789_j50697793962364_3_alg».proof.Proof.Comb1Value
import proofs.«409789_j50697793962364_3_alg».proof.Proof.CombPay
import proofs.«409789_j50697793962364_3_alg».proof.Proof.Spec
import Idealize.ShloMosaic.Lib.Pipeline.Value
import Idealize.ShloMosaic.Lib.ValueIdx

noncomputable section

namespace Cert.KernelIdeal.Val3

open Cert.KernelIdeal.Gen Cert.KernelIdeal.Comb Cert.KernelIdeal.CombVal Cert.KernelIdeal.Fr3
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

abbrev X : S10000x128.Idx → EReal := V c main_v10
abbrev A : S2x10000x128.Idx → EReal := V c main_v12
abbrev W : S128x128.Idx → EReal := V c main_arg4
abbrev B : S128.Idx → EReal := V c main_arg5

theorem idx_facts : ∀ t : Fin cfg3.N, win3_0.index t (0 : Fin 2) = t.val ∧ win3_0.index t (1 : Fin 2) = 0
    ∧ win3_1.index t (0 : Fin 3) = 0 ∧ win3_1.index t (1 : Fin 3) = t.val ∧ win3_1.index t (2 : Fin 3) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

-- row p of the tile at point t is row 1000 t + p of the arrays; the weight and bias blocks are their arrays
theorem blks (t : Fin cfg3.N) (p : Fin 1000) (k : Fin 10000) (hk : k.val = 1000 * t.val + p.val) :
    (∀ r : Fin 128, (iblk V c 0 t : Vec Ideal S1000x128 .f32) (ix2 p r) = X V c (ix2 k r))
      ∧ (∀ (a : Fin 2) (r : Fin 128), (iblk V c 1 t : Vec Ideal S2x1000x128 .f32) (ix3 a p r) = A V c (ix3 a k r))
      ∧ (iblk V c 2 t : Vec Ideal S128x128 .f32) = W V c ∧ (iblk V c 3 t : Vec Ideal S128 .f32) = B V c := by
  obtain ⟨e0, e1, e2, e3, e4, e5, e6, e7, -⟩ := idx_facts t
  refine ⟨fun r => ?_, fun a r => ?_, funext fun y => ?_, funext fun y => ?_⟩ <;> unfold iblk <;> rw [View.read_apply]
  · refine congrArg (V c main_v10) (funext fun b => Fin.ext ?_)
    match b with
    | ⟨0, _⟩ => show win3_0.index t (0 : Fin 2) * 1000 + 1 * p.val = k.val; omega
    | ⟨1, _⟩ => show win3_0.index t (1 : Fin 2) * 128 + 1 * r.val = r.val; omega
  · refine congrArg (V c main_v12) (funext fun b => Fin.ext ?_)
    match b with
    | ⟨0, _⟩ => show win3_1.index t (0 : Fin 3) * 2 + 1 * a.val = a.val; omega
    | ⟨1, _⟩ => show win3_1.index t (1 : Fin 3) * 1000 + 1 * p.val = k.val; omega
    | ⟨2, _⟩ => show win3_1.index t (2 : Fin 3) * 128 + 1 * r.val = r.val; omega
  · refine congrArg (V c main_arg4) (funext fun b => Fin.ext ?_)
    match b with
    | ⟨0, _⟩ => show win3_2.index t (0 : Fin 2) * 128 + 1 * (y 0).val = (y 0).val; omega
    | ⟨1, _⟩ => show win3_2.index t (1 : Fin 2) * 128 + 1 * (y 1).val = (y 1).val; omega
  · refine congrArg (V c main_arg5) (funext fun b => Fin.ext ?_)
    match b with
    | ⟨0, _⟩ => show win3_3.index t (0 : Fin 1) * 128 + 1 * (y 0).val = (y 0).val; omega

theorem flushed_eq (t : Fin cfg3.N) :
    (dat V c).flushed 4 t = ((cfg3.win 4).blk t).view.read (Elt Ideal) (layer CombPay.lsmRow (X V c) (A V c) (W V c) (B V c)) := by
  show (cfg3.win 4).cut (grid3.coords t) ((dat V c).after 4 t) = _
  dsimp only [dat]
  funext j
  obtain ⟨p, q, rfl⟩ : ∃ (p : Fin 1000) (q : Fin 128), j = ix2 p q := ⟨j 0, j 1, eq_ix2 j⟩
  have hN : cfg3.N = 10 := N_3
  have ht := t.isLt
  obtain ⟨-, -, -, -, -, -, -, -, e8, e9⟩ := idx_facts t
  have hk : 1000 * t.val + p.val < 10000 := by omega
  obtain ⟨h0, h1, h2, h3⟩ := blks V c t p ⟨_, hk⟩ rfl
  rw [View.read_apply]
  show _ = layer CombPay.lsmRow (X V c) (A V c) (W V c) (B V c) (((cfg3.win 4).blk t).view.emb (ix2 p q))
  refine (tile_at CombPay.pay3_apply _ _ _ _ _ _ _ _ p q ⟨_, hk⟩ h0 h1 h2 h3).trans (congrArg _ (funext fun b => Fin.ext ?_)).symm
  match b with
  | ⟨0, _⟩ => show win3_4.index t (0 : Fin 2) * 1000 + 1 * p.val = 1000 * t.val + p.val; omega
  | ⟨1, _⟩ => show win3_4.index t (1 : Fin 2) * 128 + 1 * q.val = q.val; omega

theorem cover (i : S10000x128.Idx) : ∃ t : Fin cfg3.N, (cfg3.win 4).flush t = true ∧ i ∈ ((cfg3.win 4).blk t).view.set := by
  have hN : cfg3.N = 10 := N_3
  have hi0 : (i 0).val < 10000 := (i 0).isLt
  have hi1 : (i 1).val < 128 := (i 1).isLt
  let t : Fin cfg3.N := ⟨(i 0).val / 1000, by omega⟩
  obtain ⟨-, -, -, -, -, -, -, -, e8, e9⟩ := idx_facts t
  have e8' : win3_4.index t (0 : Fin 2) = (i 0).val / 1000 := e8
  refine ⟨t, flush3_4 t, ?_⟩
  show i ∈ ((View.whole main_v13).slice (win3_4.rect t)).set
  rw [View.set_slice_whole, Rect.mem_set_unit]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 128 ≤ (i 1).val ∧ (i 1).val < win3_4.index t (1 : Fin 2) * 128 + 128; omega

theorem arr_out (k : Fin 10000) (q : Fin 128) :
    ((dat (F := Ideal) V c).arrAt 4 cfg3.N : S10000x128.Idx → EReal) (ix2 k q)
      = Cert.Spec.lsm (Cert.Spec.lin (fun k r => X V c (ix2 k r) + (A V c (ix3 0 k r) + A V c (ix3 1 k r))) (fun r q => W V c (ix2 r q)) (fun q => B V c (ix1 q))) k q :=
  congrFun ((dat V c).arrAt_eq_of_cover 4 _ (fun t _ => flushed_eq V c t) (cover)) (ix2 k q)

end Cert.KernelIdeal.Val3

end
-- ==== Proof.KernelValue.lean ====
import proofs.«409789_j50697793962364_3_alg».proof.Proof.Regs
import proofs.«409789_j50697793962364_3_alg».proof.Proof.AggValue0
import proofs.«409789_j50697793962364_3_alg».proof.Proof.AggValue2
import proofs.«409789_j50697793962364_3_alg».proof.Proof.HostGlue
import proofs.«409789_j50697793962364_3_alg».proof.Proof.Comb1Value
import proofs.«409789_j50697793962364_3_alg».proof.Proof.Comb3Value
import proofs.«409789_j50697793962364_3_alg».proof.Proof.SumSplit
import proofs.«409789_j50697793962364_3_alg».proof.Proof.Spec
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)
open Cert.Spec

theorem coreSum_add (h : Mat 10000 128) (src dst : Fin 640000 → BitVec 32) (k : Fin 10000) (j : Fin 128) :
    coreSum h src dst 0 k j + coreSum h src dst 1 k j = agg h src dst k j :=
  agg_eq_cores h src dst k j

variable (m : (ℓ : Loc nD τ sig) → Buf (Elt Ideal) ℓ) (c : Dev nD)

abbrev x : S10000x128.Idx → EReal := m ((c.tc : Thread nD τ).loc main_arg0)
abbrev ei : S2x640000.Idx → BitVec 32 := m ((c.tc : Thread nD τ).loc main_arg1)
abbrev w1 : S128x128.Idx → EReal := m ((c.tc : Thread nD τ).loc main_arg2)
abbrev b1 : S128.Idx → EReal := m ((c.tc : Thread nD τ).loc main_arg3)
abbrev w2 : S128x128.Idx → EReal := m ((c.tc : Thread nD τ).loc main_arg4)
abbrev b2 : S128.Idx → EReal := m ((c.tc : Thread nD τ).loc main_arg5)

abbrev xM : Mat 10000 128 := fun k j => x m c (ix2 k j)
abbrev src : Fin 640000 → BitVec 32 := fun e => ei m c (ix2 0 e)
abbrev dst : Fin 640000 → BitVec 32 := fun e => ei m c (ix2 1 e)
abbrev w1M : Mat 128 128 := fun r q => w1 m c (ix2 r q)
abbrev b1M : Fin 128 → EReal := fun q => b1 m c (ix1 q)

def hidden : Mat 10000 128 := relu (conv (xM m c) (src m c) (dst m c) (w1M m c) (b1M m c))

-- an array that no operation before the first launch writes is as the program was given it
theorem V5_keep (r : Ref sig .tc) (h5 : r ∉ hostOps0_4_W) (h4 : r ∉ hostOps0_3_W) (h3 : r ∉ hostOps0_2_W) (h2 : r ∉ hostOps0_1_W)
    (h1 : r ∉ hostOps0_W) : V5 m c r = m ((c.tc : Thread nD τ).loc r) :=
  (V5_of m c r h5).trans <| (V4_of m c r h4).trans <| (V3_of m c r h3).trans <| (V2_of m c r h2).trans <| (V1_of m c r h1).trans rfl

theorem v9_eq : E6 m c main_v9 = (Fr0.dat (E5 m) c).arrAt 3 cfg0.N := by
  show V6 m (outs6 m) c main_v9 = _
  simp only [V6, Function.update_self]
  exact Pipeline.withArrays_arr spec0 launch0.win.arr_inj c _ _ 3

theorem v10_eq : V7 m (outs7 m) c main_v10 = (Fr1.dat (E6 m) c).arrAt 4 cfg1.N := by
  simp only [V7, Function.update_self]
  exact Pipeline.withArrays_arr spec1 launch1.win.arr_inj c _ _ 4

theorem v12_eq : E9 m c main_v12 = (Fr2.dat (E8 m) c).arrAt 3 cfg2.N := by
  show V9 m (outs9 m) c main_v12 = _
  simp only [V9, Function.update_self]
  exact Pipeline.withArrays_arr spec2 launch2.win.arr_inj c _ _ 3

theorem v13_eq : outs m 10 main_v13 c = (Fr3.dat (E9 m) c).arrAt 4 cfg3.N :=
  Pipeline.withArrays_arr spec3 launch3.win.arr_inj c _ _ 4

theorem V7_layer : V7 m (outs9 m) c = V7 m (outs7 m) c := rfl

section Found
variable (hr : ∀ (a : Fin 2) (e : Fin 640000), 0 ≤ (ei m c (ix2 a e)).toInt ∧ (ei m c (ix2 a e)).toInt < 10000)
include hr

theorem found0_v3 (e : Fin 640000) : (E5 m c main_v3 : S1x640000.Idx → BitVec 32) (ix2 0 e) = src m c e :=
  HostGlue.v3_apply m c e (hr 0 e)
theorem found0_v7 (e : Fin 640000) : (E5 m c main_v7 : S1x640000.Idx → BitVec 32) (ix2 0 e) = dst m c e :=
  HostGlue.v7_apply m c e (hr 1 e)
omit hr in
theorem found0_v8 (k : Fin 10000) (j : Fin 128) : (E5 m c main_v8 : S10000x128.Idx → EReal) (ix2 k j) = xM m c k j :=
  HostGlue.v8_apply m c k j

theorem left0 (cc : Fin 2) (k : Fin 10000) (j : Fin 128) :
    (E6 m c main_v9 : S2x10000x128.Idx → EReal) (ix3 cc k j) = coreSum (xM m c) (src m c) (dst m c) cc k j := by
  refine Eq.trans (α := EReal) (congrFun (v9_eq m c) (ix3 cc k j)) ?_
  refine Eq.trans (α := EReal) (Val0.arr_out (E5 m) c cc k j) ?_
  unfold coreSum
  refine Finset.sum_congr rfl fun e _ => Finset.sum_congr rfl fun i _ => ?_
  show oh (BitVec.ofNat 32 k.val) ((E5 m c main_v7 : S1x640000.Idx → BitVec 32) (ix2 0 (col cc e i)))
      * ∑ r : Fin 10000, oh (BitVec.ofNat 32 r.val) ((E5 m c main_v3 : S1x640000.Idx → BitVec 32) (ix2 0 (col cc e i)))
          * (E5 m c main_v8 : S10000x128.Idx → EReal) (ix2 r j) = _
  rw [found0_v3 m c hr, found0_v7 m c hr]
  refine congrArg (_ * ·) (Finset.sum_congr rfl fun r _ => ?_)
  rw [found0_v8 m c]

theorem left1 (k : Fin 10000) (j : Fin 128) :
    (V7 m (outs7 m) c main_v10 : S10000x128.Idx → EReal) (ix2 k j) = hidden m c k j := by
  refine Eq.trans (α := EReal) (congrFun (v10_eq m c) (ix2 k j)) ?_
  refine Eq.trans (α := EReal) (Val1.arr_out (E6 m) c k j) ?_
  have hX : Val1.X (E6 m) c = x m c := (V6_of m (outs6 m) c main_arg0 (by decide)).trans (V5_keep m c main_arg0 (by decide) (by decide) (by decide) (by decide) (by decide))
  have hW : Val1.W (E6 m) c = w1 m c := (V6_of m (outs6 m) c main_arg2 (by decide)).trans (V5_keep m c main_arg2 (by decide) (by decide) (by decide) (by decide) (by decide))
  have hB : Val1.B (E6 m) c = b1 m c := (V6_of m (outs6 m) c main_arg3 (by decide)).trans (V5_keep m c main_arg3 (by decide) (by decide) (by decide) (by decide) (by decide))
  have hA : ∀ (cc : Fin 2) (k : Fin 10000) (r : Fin 128), Val1.A (E6 m) c (ix3 cc k r) = coreSum (xM m c) (src m c) (dst m c) cc k r :=
    fun cc k r => left0 m c hr cc k r
  simp only [hX, hW, hB, hA, coreSum_add]
  rfl

theorem left2 (cc : Fin 2) (k : Fin 10000) (j : Fin 128) :
    (E9 m c main_v12 : S2x10000x128.Idx → EReal) (ix3 cc k j) = coreSum (hidden m c) (src m c) (dst m c) cc k j := by
  refine Eq.trans (α := EReal) (congrFun (v12_eq m c) (ix3 cc k j)) ?_
  refine Eq.trans (α := EReal) (Val2.arr_out (E8 m) c cc k j) ?_
  unfold coreSum
  have h3 : (E8 m c main_v3 : S1x640000.Idx → BitVec 32) = E5 m c main_v3 :=
    (V8_of m (outs7 m) c main_v3 (by decide)).trans <| (V7_of m (outs7 m) c main_v3 (by decide)).trans (V6_of m (outs7 m) c main_v3 (by decide))
  have h7 : (E8 m c main_v7 : S1x640000.Idx → BitVec 32) = E5 m c main_v7 :=
    (V8_of m (outs7 m) c main_v7 (by decide)).trans <| (V7_of m (outs7 m) c main_v7 (by decide)).trans (V6_of m (outs7 m) c main_v7 (by decide))
  refine Finset.sum_congr rfl fun e _ => Finset.sum_congr rfl fun i _ => ?_
  show oh (BitVec.ofNat 32 k.val) ((E8 m c main_v7 : S1x640000.Idx → BitVec 32) (ix2 0 (col cc e i)))
      * ∑ r : Fin 10000, oh (BitVec.ofNat 32 r.val) ((E8 m c main_v3 : S1x640000.Idx → BitVec 32) (ix2 0 (col cc e i)))
          * (E8 m c main_v11 : S10000x128.Idx → EReal) (ix2 r j) = _
  rw [h3, h7, found0_v3 m c hr, found0_v7 m c hr]
  refine congrArg (_ * ·) (Finset.sum_congr rfl fun r _ => ?_)
  rw [show (E8 m c main_v11 : S10000x128.Idx → EReal) (ix2 r j) = (V7 m (outs7 m) c main_v10 : S10000x128.Idx → EReal) (ix2 r j) from
    HostGlue.v11_apply m (outs7 m) c r j, left1 m c hr]

theorem result_eq (k : Fin 10000) (j : Fin 128) :
    (Cert.KernelIdeal.Fr.outs (F := Ideal) m 10 main_v13 c : S10000x128.Idx → EReal) (ix2 k j)
      = gin (fun k j => x m c (ix2 k j)) (fun e => ei m c (ix2 0 e)) (fun e => ei m c (ix2 1 e)) (fun r q => w1 m c (ix2 r q)) (fun q => b1 m c (ix1 q))
          (fun r q => w2 m c (ix2 r q)) (fun q => b2 m c (ix1 q)) k j := by
  refine Eq.trans (α := EReal) (congrFun (v13_eq m c) (ix2 k j)) ?_
  refine Eq.trans (α := EReal) (Val3.arr_out (E9 m) c k j) ?_
  have hX : ∀ (k : Fin 10000) (r : Fin 128), Val3.X (E9 m) c (ix2 k r) = hidden m c k r := fun k r => by
    have e : Val3.X (E9 m) c = V7 m (outs7 m) c main_v10 :=
      (V9_of m (outs9 m) c main_v10 (by decide)).trans <| (V8_of m (outs9 m) c main_v10 (by decide)).trans (congrFun (V7_layer m c) _)
    rw [e]; exact left1 m c hr k r
  have hW : Val3.W (E9 m) c = w2 m c :=
    (V9_of m (outs9 m) c main_arg4 (by decide)).trans <| (V8_of m (outs9 m) c main_arg4 (by decide)).trans <|
      (V7_of m (outs9 m) c main_arg4 (by decide)).trans <| (V6_of m (outs9 m) c main_arg4 (by decide)).trans (V5_keep m c main_arg4 (by decide) (by decide) (by decide) (by decide) (by decide))
  have hB : Val3.B (E9 m) c = b2 m c :=
    (V9_of m (outs9 m) c main_arg5 (by decide)).trans <| (V8_of m (outs9 m) c main_arg5 (by decide)).trans <|
      (V7_of m (outs9 m) c main_arg5 (by decide)).trans <| (V6_of m (outs9 m) c main_arg5 (by decide)).trans (V5_keep m c main_arg5 (by decide) (by decide) (by decide) (by decide) (by decide))
  have hA : ∀ (cc : Fin 2) (k : Fin 10000) (r : Fin 128), Val3.A (E9 m) c (ix3 cc k r) = coreSum (hidden m c) (src m c) (dst m c) cc k r :=
    fun cc k r => left2 m c hr cc k r
  simp only [hX, hW, hB, hA, coreSum_add]
  rfl

end Found

end Cert.KernelIdeal.KVal

end
-- ==== Proof.lean ====
import proofs.«409789_j50697793962364_3_alg».proof.Defs
import proofs.«409789_j50697793962364_3_alg».proof.Proof.Gen.Kernel
import proofs.«409789_j50697793962364_3_alg».proof.Proof.Gen.KernelIdeal
import proofs.«409789_j50697793962364_3_alg».proof.Proof.Gen.ReferenceIdeal
import proofs.«409789_j50697793962364_3_alg».proof.Proof.Gen.Pre_finite_inputs
import proofs.«409789_j50697793962364_3_alg».proof.Proof.KRegs
import proofs.«409789_j50697793962364_3_alg».proof.Proof.Regs
import proofs.«409789_j50697793962364_3_alg».proof.Proof.RefRun
import proofs.«409789_j50697793962364_3_alg».proof.Proof.RefValue
import proofs.«409789_j50697793962364_3_alg».proof.Proof.PreDecode
import proofs.«409789_j50697793962364_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

-- under the precondition every edge word is a node number, so both programs compute the same two-layer neighbour-sum network, entry by entry
theorem algebraic : Cert.algebraic_KernelIdeal_ReferenceIdeal := by
  intro m ρ m' ρ' hpre hagree
  refine ⟨fun c => Cert.KernelIdeal.Fr.outs (F := Ideal) m 10 Cert.KernelIdeal.main_v13 c,
    Cert.KernelIdeal.Fr.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  funext i
  obtain ⟨k, j, rfl⟩ : ∃ (k : Fin 10000) (j : Fin 128), i = ValueIdx.ix2 k j := ⟨i 0, i 1, ValueIdx.eq_ix2 i⟩
  have hr := Cert.KernelIdeal.PreDecode.range_of_Pre m hpre c
  exact (Cert.ReferenceIdeal.RefValue.ref_eq _ _ _ _ _ _ hr k j).trans (Cert.KernelIdeal.KVal.result_eq m c hr k j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
